-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x32 : Shape := ⟨2, ![65536, 32]⟩
abbrev S1048576x8 : Shape := ⟨2, ![1048576, 8]⟩
abbrev S1048576 : Shape := ⟨1, ![1048576]⟩
abbrev S65536 : Shape := ⟨1, ![65536]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S8x64 : Shape := ⟨2, ![8, 64]⟩
abbrev S8x1 : Shape := ⟨2, ![8, 1]⟩
abbrev S1x1 : Shape := ⟨2, ![1, 1]⟩
abbrev S_ : Shape := ⟨0, ![]⟩

class Facts : Prop where
  bcast_S_S65536x32 : S_.BroadcastsInDim S65536x32 (![] : Fin 0 → Fin S65536x32.rank)
  reducesTo_S65536x32_S_d0_1 : S65536x32.ReducesTo [0, 1] S_
  h_S_ : 0 < S_.numel
  bcast_S_S1048576x8 : S_.BroadcastsInDim S1048576x8 (![] : Fin 0 → Fin S1048576x8.rank)
  reducesTo_S1048576x8_S_d0_1 : S1048576x8.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S8x64 : S_.BroadcastsInDim S8x64 (![] : Fin 0 → Fin S8x64.rank)
  reducesTo_S8x64_S_d0_1 : S8x64.ReducesTo [0, 1] S_
  bcast_S_S8x1 : S_.BroadcastsInDim S8x1 (![] : Fin 0 → Fin S8x1.rank)
  reducesTo_S8x1_S_d0_1 : S8x1.ReducesTo [0, 1] S_
  bcast_S_S1x1 : S_.BroadcastsInDim S1x1 (![] : Fin 0 → Fin S1x1.rank)
  reducesTo_S1x1_S_d0_1 : S1x1.ReducesTo [0, 1] S_

variable [Facts]

def fn_part5 {F : FTy → Type} [FloatOps F] (main_arg21 : FVec F S1x1 .f32) (main_arg22 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S1x1 .f32 := Host.absf main_arg21
  let main_cst_34 : FVec F S_ .f32 := constant S_ .f32 0x7F800000#32
  let main_v90 : FVec F S1x1 .f32 := broadcastInDim S1x1 ![] bcast_S_S1x1 main_cst_34
  let main_v91 : IVec S1x1 1 := cmpf .olt main_v89 main_v90
  let main_c_35 : IVec S_ 1 := constantI S_ 1 1#1
  let main_v92 : IVec S_ 1 := (fun x v => Host.reduce IntOp.andi x v reducesTo_S1x1_S_d0_1 h_S_) main_v91 main_c_35
  let main_v93 : IVec S_ 1 := andi main_v88 main_v92
  let main_v94 : FVec F S1 .f32 := Host.absf main_arg22
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg17 : FVec F S64x64 .f32) (main_arg18 : FVec F S64 .f32) (main_arg19 : FVec F S8x1 .f32) (main_arg20 : FVec F S1 .f32) (main_arg21 : FVec F S1x1 .f32) (main_arg22 : FVec F S1 .f32) (main_v63 : IVec S_ 1) (main_v67 : IVec S_ 1) : IVec S_ 1 :=
  let main_v68 : IVec S_ 1 := andi main_v63 main_v67
  let main_v69 : FVec F S64x64 .f32 := Host.absf main_arg17
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg18
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S8x1 .f32 := Host.absf main_arg19
  let main_cst_30 : FVec F S_ .f32 := constant S_ .f32 0x7F800000#32
  let main_v80 : FVec F S8x1 .f32 := broadcastInDim S8x1 ![] bcast_S_S8x1 main_cst_30
  let main_v81 : IVec S8x1 1 := cmpf .olt main_v79 main_v80
  let main_c_31 : IVec S_ 1 := constantI S_ 1 1#1
  let main_v82 : IVec S_ 1 := (fun x v => Host.reduce IntOp.andi x v reducesTo_S8x1_S_d0_1 h_S_) main_v81 main_c_31
  let main_v83 : IVec S_ 1 := andi main_v78 main_v82
  let main_v84 : FVec F S1 .f32 := Host.absf main_arg20
  let main_cst_32 : FVec F S_ .f32 := constant S_ .f32 0x7F800000#32
  fn_part5 (F := F) main_arg21 main_arg22 main_v83 main_v84 main_cst_32

def fn_part3 {F : FTy → Type} [FloatOps F] (main_arg14 : FVec F S64 .f32) (main_arg15 : FVec F S8x64 .f32) (main_arg16 : FVec F S64 .f32) (main_arg17 : FVec F S64x64 .f32) (main_arg18 : FVec F S64 .f32) (main_arg19 : FVec F S8x1 .f32) (main_arg20 : FVec F S1 .f32) (main_arg21 : FVec F S1x1 .f32) (main_arg22 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S8x64 .f32 := Host.absf main_arg15
  let main_cst_22 : FVec F S_ .f32 := constant S_ .f32 0x7F800000#32
  let main_v60 : FVec F S8x64 .f32 := broadcastInDim S8x64 ![] bcast_S_S8x64 main_cst_22
  let main_v61 : IVec S8x64 1 := cmpf .olt main_v59 main_v60
  let main_c_23 : IVec S_ 1 := constantI S_ 1 1#1
  let main_v62 : IVec S_ 1 := (fun x v => Host.reduce IntOp.andi x v reducesTo_S8x64_S_d0_1 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg17 main_arg18 main_arg19 main_arg20 main_arg21 main_arg22 main_v63 main_v67

def fn_part2 {F : FTy → Type} [FloatOps F] (main_arg10 : FVec F S1 .f32) (main_arg11 : FVec F S8x64 .f32) (main_arg12 : FVec F S64 .f32) (main_arg13 : FVec F S64x64 .f32) (main_arg14 : FVec F S64 .f32) (main_arg15 : FVec F S8x64 .f32) (main_arg16 : FVec F S64 .f32) (main_arg17 : FVec F S64x64 .f32) (main_arg18 : FVec F S64 .f32) (main_arg19 : FVec F S8x1 .f32) (main_arg20 : FVec F S1 .f32) (main_arg21 : FVec F S1x1 .f32) (main_arg22 : FVec F S1 .f32) (main_v33 : IVec S_ 1) : IVec S_ 1 :=
  let main_v34 : FVec F S1 .f32 := Host.absf main_arg10
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S8x64 .f32 := Host.absf main_arg11
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg13
  let main_cst_18 : FVec F S_ .f32 := constant S_ .f32 0x7F800000#32
  let main_v50 : FVec F S64x64 .f32 := broadcastInDim S64x64 ![] bcast_S_S64x64 main_cst_18
  fn_part3 (F := F) main_arg14 main_arg15 main_arg16 main_arg17 main_arg18 main_arg19 main_arg20 main_arg21 main_arg22 main_v48 main_v49 main_v50

def fn_part1 {F : FTy → Type} [FloatOps F] (main_arg7 : FVec F S64x64 .f32) (main_arg8 : FVec F S64 .f32) (main_arg9 : FVec F S64x1 .f32) (main_arg10 : FVec F S1 .f32) (main_arg11 : FVec F S8x64 .f32) (main_arg12 : FVec F S64 .f32) (main_arg13 : FVec F S64x64 .f32) (main_arg14 : FVec F S64 .f32) (main_arg15 : FVec F S8x64 .f32) (main_arg16 : FVec F S64 .f32) (main_arg17 : FVec F S64x64 .f32) (main_arg18 : FVec F S64 .f32) (main_arg19 : FVec F S8x1 .f32) (main_arg20 : FVec F S1 .f32) (main_arg21 : FVec F S1x1 .f32) (main_arg22 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg9
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_v33

def fn {F : FTy → Type} [FloatOps F] (main_arg0 : FVec F S65536x32 .f32) (main_arg1 : FVec F S1048576x8 .f32) (main_arg2 : IVec S1048576 32) (main_arg3 : IVec S1048576 32) (main_arg4 : IVec S65536 32) (main_arg5 : FVec F S32x64 .f32) (main_arg6 : FVec F S64 .f32) (main_arg7 : FVec F S64x64 .f32) (main_arg8 : FVec F S64 .f32) (main_arg9 : FVec F S64x1 .f32) (main_arg10 : FVec F S1 .f32) (main_arg11 : FVec F S8x64 .f32) (main_arg12 : FVec F S64 .f32) (main_arg13 : FVec F S64x64 .f32) (main_arg14 : FVec F S64 .f32) (main_arg15 : FVec F S8x64 .f32) (main_arg16 : FVec F S64 .f32) (main_arg17 : FVec F S64x64 .f32) (main_arg18 : FVec F S64 .f32) (main_arg19 : FVec F S8x1 .f32) (main_arg20 : FVec F S1 .f32) (main_arg21 : FVec F S1x1 .f32) (main_arg22 : FVec F S1 .f32) : IVec S_ 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_c : IVec S_ 1 := constantI S_ 1 1#1
  let main_v3 : IVec S_ 1 := (fun x v => Host.reduce IntOp.andi x v reducesTo_S65536x32_S_d0_1 h_S_) main_v2 main_c
  let main_v4 : FVec F S1048576x8 .f32 := Host.absf main_arg1
  let main_cst_0 : FVec F S_ .f32 := constant S_ .f32 0x7F800000#32
  let main_v5 : FVec F S1048576x8 .f32 := broadcastInDim S1048576x8 ![] bcast_S_S1048576x8 main_cst_0
  let main_v6 : IVec S1048576x8 1 := cmpf .olt main_v4 main_v5
  let main_c_1 : IVec S_ 1 := constantI S_ 1 1#1
  let main_v7 : IVec S_ 1 := (fun x v => Host.reduce IntOp.andi x v reducesTo_S1048576x8_S_d0_1 h_S_) main_v6 main_c_1
  let main_v8 : IVec S_ 1 := andi main_v3 main_v7
  let main_v9 : FVec F S32x64 .f32 := Host.absf main_arg5
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S65536x32 : Shape := ⟨2, ![65536, 32]⟩
abbrev S1048576x8 : Shape := ⟨2, ![1048576, 8]⟩
abbrev S1048576 : Shape := ⟨1, ![1048576]⟩
abbrev S65536 : Shape := ⟨1, ![65536]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S8x64 : Shape := ⟨2, ![8, 64]⟩
abbrev S8x1 : Shape := ⟨2, ![8, 1]⟩
abbrev S1x1 : Shape := ⟨2, ![1, 1]⟩
abbrev S65536x64 : Shape := ⟨2, ![65536, 64]⟩
abbrev S8192x32 : Shape := ⟨2, ![8192, 32]⟩
abbrev S8192x64 : Shape := ⟨2, ![8192, 64]⟩
abbrev S_ : Shape := ⟨0, ![]⟩
abbrev S1048576x1 : Shape := ⟨2, ![1048576, 1]⟩
abbrev S1048576x64 : Shape := ⟨2, ![1048576, 64]⟩
abbrev S1x64 : Shape := ⟨2, ![1, 64]⟩
abbrev S8192x8 : Shape := ⟨2, ![8192, 8]⟩
abbrev S65536x1 : Shape := ⟨2, ![65536, 1]⟩
abbrev S8192x1 : Shape := ⟨2, ![8192, 1]⟩
abbrev S8192 : Shape := ⟨1, ![8192]⟩

abbrev nBuf : Space → Nat
  | .hbm => 80
  | .vmem => 55
  | .smem => 0
  | _ => 0

abbrev bufTy : (tb : Table) → Fin (tcTables nBuf tb) → BufTy
  | .hbm, ⟨0, _⟩ => ⟨S65536x32, .f32⟩
  | .hbm, ⟨1, _⟩ => ⟨S1048576x8, .f32⟩
  | .hbm, ⟨2, _⟩ => ⟨S1048576, .i32⟩
  | .hbm, ⟨3, _⟩ => ⟨S1048576, .i32⟩
  | .hbm, ⟨4, _⟩ => ⟨S65536, .i32⟩
  | .hbm, ⟨5, _⟩ => ⟨S32x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S8x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S8x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S8x1, .f32⟩
  | .hbm, ⟨20, _⟩ => ⟨S1, .f32⟩
  | .hbm, ⟨21, _⟩ => ⟨S1x1, .f32⟩
  | .hbm, ⟨22, _⟩ => ⟨S1, .f32⟩
  | .hbm, ⟨23, _⟩ => ⟨S65536x64, .bf16⟩
  | .hbm, ⟨24, _⟩ => ⟨S_, .i32⟩
  | .hbm, ⟨25, _⟩ => ⟨S1048576, .i32⟩
  | .hbm, ⟨26, _⟩ => ⟨S1048576, .i1⟩
  | .hbm, ⟨27, _⟩ => ⟨S_, .i32⟩
  | .hbm, ⟨28, _⟩ => ⟨S1048576, .i32⟩
  | .hbm, ⟨29, _⟩ => ⟨S1048576, .i32⟩
  | .hbm, ⟨30, _⟩ => ⟨S1048576, .i32⟩
  | .hbm, ⟨31, _⟩ => ⟨S1048576x1, .i32⟩
  | .hbm, ⟨32, _⟩ => ⟨S1048576x64, .bf16⟩
  | .hbm, ⟨33, _⟩ => ⟨S1x64, .f32⟩
  | .hbm, ⟨34, _⟩ => ⟨S1x64, .f32⟩
  | .hbm, ⟨35, _⟩ => ⟨S1048576x64, .bf16⟩
  | .hbm, ⟨36, _⟩ => ⟨S1048576x64, .f32⟩
  | .hbm, ⟨37, _⟩ => ⟨S_, .f32⟩
  | .hbm, ⟨38, _⟩ => ⟨S65536x64, .f32⟩
  | .hbm, ⟨39, _⟩ => ⟨S1048576x1, .i32⟩
  | .hbm, ⟨40, _⟩ => ⟨S65536x64, .f32⟩
  | .hbm, ⟨41, _⟩ => ⟨S1x64, .f32⟩
  | .hbm, ⟨42, _⟩ => ⟨S65536x64, .bf16⟩
  | .hbm, ⟨43, _⟩ => ⟨S_, .i32⟩
  | .hbm, ⟨44, _⟩ => ⟨S1048576, .i32⟩
  | .hbm, ⟨45, _⟩ => ⟨S1048576, .i1⟩
  | .hbm, ⟨46, _⟩ => ⟨S_, .i32⟩
  | .hbm, ⟨47, _⟩ => ⟨S1048576, .i32⟩
  | .hbm, ⟨48, _⟩ => ⟨S1048576, .i32⟩
  | .hbm, ⟨49, _⟩ => ⟨S1048576, .i32⟩
  | .hbm, ⟨50, _⟩ => ⟨S1048576x1, .i32⟩
  | .hbm, ⟨51, _⟩ => ⟨S1048576x64, .bf16⟩
  | .hbm, ⟨52, _⟩ => ⟨S1x64, .f32⟩
  | .hbm, ⟨53, _⟩ => ⟨S1x64, .f32⟩
  | .hbm, ⟨54, _⟩ => ⟨S1048576x64, .bf16⟩
  | .hbm, ⟨55, _⟩ => ⟨S1048576x64, .f32⟩
  | .hbm, ⟨56, _⟩ => ⟨S_, .f32⟩
  | .hbm, ⟨57, _⟩ => ⟨S65536x64, .f32⟩
  | .hbm, ⟨58, _⟩ => ⟨S1048576x1, .i32⟩
  | .hbm, ⟨59, _⟩ => ⟨S65536x64, .f32⟩
  | .hbm, ⟨60, _⟩ => ⟨S1x64, .f32⟩
  | .hbm, ⟨61, _⟩ => ⟨S65536x1, .f32⟩
  | .hbm, ⟨62, _⟩ => ⟨S_, .i32⟩
  | .hbm, ⟨63, _⟩ => ⟨S1048576, .i32⟩
  | .hbm, ⟨64, _⟩ => ⟨S1048576, .i1⟩
  | .hbm, ⟨65, _⟩ => ⟨S_, .i32⟩
  | .hbm, ⟨66, _⟩ => ⟨S1048576, .i32⟩
  | .hbm, ⟨67, _⟩ => ⟨S1048576, .i32⟩
  | .hbm, ⟨68, _⟩ => ⟨S1048576, .i32⟩
  | .hbm, ⟨69, _⟩ => ⟨S1048576x1, .i32⟩
  | .hbm, ⟨70, _⟩ => ⟨S1048576x1, .f32⟩
  | .hbm, ⟨71, _⟩ => ⟨S1x1, .f32⟩
  | .hbm, ⟨72, _⟩ => ⟨S1x1, .f32⟩
  | .hbm, ⟨73, _⟩ => ⟨S1048576x1, .f32⟩
  | .hbm, ⟨74, _⟩ => ⟨S_, .f32⟩
  | .hbm, ⟨75, _⟩ => ⟨S65536x1, .f32⟩
  | .hbm, ⟨76, _⟩ => ⟨S1048576x1, .i32⟩
  | .hbm, ⟨77, _⟩ => ⟨S65536x1, .f32⟩
  | .hbm, ⟨78, _⟩ => ⟨S1x1, .f32⟩
  | .hbm, ⟨79, _⟩ => ⟨S64x1, .f32⟩
  | .local _ .vmem, ⟨0, _⟩ => ⟨S8192x32, .f32⟩
  | .local _ .vmem, ⟨1, _⟩ => ⟨S8192x32, .f32⟩
  | .local _ .vmem, ⟨2, _⟩ => ⟨S32x64, .f32⟩
  | .local _ .vmem, ⟨3, _⟩ => ⟨S8192x64, .bf16⟩
  | .local _ .vmem, ⟨4, _⟩ => ⟨S8192x64, .bf16⟩
  | .local _ .vmem, ⟨5, _⟩ => ⟨S8192x64, .bf16⟩
  | .local _ .vmem, ⟨6, _⟩ => ⟨S8192x64, .bf16⟩
  | .local _ .vmem, ⟨7, _⟩ => ⟨S8192x8, .f32⟩
  | .local _ .vmem, ⟨8, _⟩ => ⟨S8192x8, .f32⟩
  | .local _ .vmem, ⟨9, _⟩ => ⟨S8x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S8192x64, .bf16⟩
  | .local _ .vmem, ⟨14, _⟩ => ⟨S8192x64, .bf16⟩
  | .local _ .vmem, ⟨15, _⟩ => ⟨S8192x64, .f32⟩
  | .local _ .vmem, ⟨16, _⟩ => ⟨S8192x64, .f32⟩
  | .local _ .vmem, ⟨17, _⟩ => ⟨S64x64, .f32⟩
  | .local _ .vmem, ⟨18, _⟩ => ⟨S1x64, .f32⟩
  | .local _ .vmem, ⟨19, _⟩ => ⟨S8192x64, .bf16⟩
  | .local _ .vmem, ⟨20, _⟩ => ⟨S8192x64, .bf16⟩
  | .local _ .vmem, ⟨21, _⟩ => ⟨S8192x64, .bf16⟩
  | .local _ .vmem, ⟨22, _⟩ => ⟨S8192x64, .bf16⟩
  | .local _ .vmem, ⟨23, _⟩ => ⟨S8192x8, .f32⟩
  | .local _ .vmem, ⟨24, _⟩ => ⟨S8192x8, .f32⟩
  | .local _ .vmem, ⟨25, _⟩ => ⟨S8x64, .f32⟩
  | .local _ .vmem, ⟨26, _⟩ => ⟨S1x64, .f32⟩
  | .local _ .vmem, ⟨27, _⟩ => ⟨S64x64, .f32⟩
  | .local _ .vmem, ⟨28, _⟩ => ⟨S1x64, .f32⟩
  | .local _ .vmem, ⟨29, _⟩ => ⟨S8192x64, .bf16⟩
  | .local _ .vmem, ⟨30, _⟩ => ⟨S8192x64, .bf16⟩
  | .local _ .vmem, ⟨31, _⟩ => ⟨S8192x64, .f32⟩
  | .local _ .vmem, ⟨32, _⟩ => ⟨S8192x64, .f32⟩
  | .local _ .vmem, ⟨33, _⟩ => ⟨S64x1, .f32⟩
  | .local _ .vmem, ⟨34, _⟩ => ⟨S1x64, .f32⟩
  | .local _ .vmem, ⟨35, _⟩ => ⟨S8192x1, .f32⟩
  | .local _ .vmem, ⟨36, _⟩ => ⟨S8192x1, .f32⟩
  | .local _ .vmem, ⟨37, _⟩ => ⟨S8192x1, .f32⟩
  | .local _ .vmem, ⟨38, _⟩ => ⟨S8192x1, .f32⟩
  | .local _ .vmem, ⟨39, _⟩ => ⟨S8192x8, .f32⟩
  | .local _ .vmem, ⟨40, _⟩ => ⟨S8192x8, .f32⟩
  | .local _ .vmem, ⟨41, _⟩ => ⟨S8x1, .f32⟩
  | .local _ .vmem, ⟨42, _⟩ => ⟨S1x1, .f32⟩
  | .local _ .vmem, ⟨43, _⟩ => ⟨S1x1, .f32⟩
  | .local _ .vmem, ⟨44, _⟩ => ⟨S1x1, .f32⟩
  | .local _ .vmem, ⟨45, _⟩ => ⟨S8192x1, .f32⟩
  | .local _ .vmem, ⟨46, _⟩ => ⟨S8192x1, .f32⟩
  | .local _ .vmem, ⟨47, _⟩ => ⟨S8192x1, .f32⟩
  | .local _ .vmem, ⟨48, _⟩ => ⟨S8192x1, .f32⟩
  | .local _ .vmem, ⟨49, _⟩ => ⟨S8192, .i32⟩
  | .local _ .vmem, ⟨50, _⟩ => ⟨S8192, .i32⟩
  | .local _ .vmem, ⟨51, _⟩ => ⟨S1x1, .f32⟩
  | .local _ .vmem, ⟨52, _⟩ => ⟨S64x1, .f32⟩
  | .local _ .vmem, ⟨53, _⟩ => ⟨S64x1, .f32⟩
  | .local _ .vmem, ⟨54, _⟩ => ⟨S64x1, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_c : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_1 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_4 : Ref sig .tc := ⟨.hbm, 62, rfl⟩
abbrev main_v33 : Ref sig .tc := ⟨.hbm, 63, rfl⟩
abbrev main_v34 : Ref sig .tc := ⟨.hbm, 64, rfl⟩
abbrev main_c_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg6_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg6_0 : Ref sig .tc := ⟨.vmem, 45, rfl⟩
abbrev cc5_stg6_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg1_1 : Ref sig .tc := ⟨.vmem, 50, rfl⟩
abbrev cc6_stg2_0 : Ref sig .tc := ⟨.vmem, 51, rfl⟩
abbrev cc6_stg3_0 : Ref sig .tc := ⟨.vmem, 52, rfl⟩
abbrev cc6_scratch0 : Ref sig .tc := ⟨.vmem, 53, rfl⟩
abbrev cc6_scratch1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem6_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem6_0 : DmaSem sig := 45
abbrev cc5_sem6_1 : DmaSem sig := 46
abbrev cc6_sem0_0 : DmaSem sig := 47
abbrev cc6_sem0_1 : DmaSem sig := 48
abbrev cc6_sem1_0 : DmaSem sig := 49
abbrev cc6_sem1_1 : DmaSem sig := 50
abbrev cc6_sem2_0 : DmaSem sig := 51
abbrev cc6_sem3_0 : DmaSem sig := 52

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8192x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S8x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8192x64 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8192x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![128], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x8 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S8x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S8192x1 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![8], ![false]⟩

def k6_cond2 (i : grid6.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_13 : BitVec 32 := 0#32
  let v27 : BitVec 1 := Scalar.cmpi .ne v26 c0_i32_13
  v27

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  ![arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S8192x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8192 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  inb_S8192x32_S8192x32_0_0 : ∀ a, (![0, 0] : Fin 2 → Nat) a + S8192x32.size a ≤ S8192x32.size a
  h_S8192x32 : 0 < S8192x32.numel
  inb_S32x64_S32x64_0_0 : ∀ a, (![0, 0] : Fin 2 → Nat) a + S32x64.size a ≤ S32x64.size a
  h_S32x64 : 0 < S32x64.numel
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  packedbf16_S8192x64_S8192x64_0_0 : (Rect.unit (s := S8192x64) ![0, 0] S8192x64.size inb_S8192x64_S8192x64_0_0).PackedRows (EltTy.packing .bf16)
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S64_S1x64 : S64.ShapeCasts S1x64
  shapeCasts_S8192x64_S8192x64 : S8192x64.ShapeCasts S8192x64
  inb_S8192x8_S8192x8_0_0 : ∀ a, (![0, 0] : Fin 2 → Nat) a + S8192x8.size a ≤ S8192x8.size a
  h_S8192x8 : 0 < S8192x8.numel
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  bcast_S_S65536x64 : S_.BroadcastsInDim S65536x64 (![] : Fin 0 → Fin S65536x64.rank)
  inb_S64x1_S64x1_0_0 : ∀ a, (![0, 0] : Fin 2 → Nat) a + S64x1.size a ≤ S64x1.size a
  h_S64x1 : 0 < S64x1.numel
  inb_S8192x1_S8192x1_0_0 : ∀ a, (![0, 0] : Fin 2 → Nat) a + S8192x1.size a ≤ S8192x1.size a
  h_S8192x1 : 0 < S8192x1.numel
  shapeCasts_S1_S1x1 : S1.ShapeCasts S1x1
  shapeCasts_S8192x1_S8192x1 : S8192x1.ShapeCasts S8192x1
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  bcast_S_S65536x1 : S_.BroadcastsInDim S65536x1 (![] : Fin 0 → Fin S65536x1.rank)
  shapeCasts_S64x1_S64x1 : S64x1.ShapeCasts S64x1
  inb_S8192_S8192_0 : ∀ a, (![0] : Fin 1 → Nat) a + S8192.size a ≤ S8192.size a
  h_S8192 : 0 < S8192.numel
  iota_S8192x64_d1_w32 : S8192x64.Iotas .tc 32 [1]
  shapeCasts_S8192_S8192x1 : S8192.ShapeCasts S8192x1
  broadcasts_S8192x1_S8192x64 : S8192x1.Broadcasts S8192x64
  natLt_1_32 : 1 < 32
  broadcasts_S1x1_S64x1 : S1x1.Broadcasts S64x1
  dot_S8192x32_S32x64_S8192x64_1_0_0_1_n_n_wf : DotDims.WF S8192x32 S32x64 S8192x64 [1] [0] [0] [1] [] []
  gather_S65536x64_S1048576x1_S1048576x64_1_0_n_n_0_1_164_wf : GatherDims.WF S65536x64 S1048576x1 S1048576x64 [1] [0] [] [0] [] 1 ![1, 64]
  dot_S8192x8_S8x64_S8192x64_1_0_0_1_n_n_wf : DotDims.WF S8192x8 S8x64 S8192x64 [1] [0] [0] [1] [] []
  dot_S8192x64_S64x64_S8192x64_1_0_0_1_n_n_wf : DotDims.WF S8192x64 S64x64 S8192x64 [1] [0] [0] [1] [] []
  scatter_S65536x64_S1048576x1_S1048576x64_1_0_0_1_wf : ScatterDims.WF S65536x64 S1048576x1 S1048576x64 [1] [0] [0] 1
  dot_S8192x64_S64x1_S8192x1_1_0_0_1_n_n_wf : DotDims.WF S8192x64 S64x1 S8192x1 [1] [0] [0] [1] [] []
  gather_S65536x1_S1048576x1_S1048576x1_1_0_n_n_0_1_11_wf : GatherDims.WF S65536x1 S1048576x1 S1048576x1 [1] [0] [] [0] [] 1 ![1, 1]
  dot_S8192x8_S8x1_S8192x1_1_0_0_1_n_n_wf : DotDims.WF S8192x8 S8x1 S8192x1 [1] [0] [0] [1] [] []
  dot_S8192x1_S1x1_S8192x1_1_0_0_1_n_n_wf : DotDims.WF S8192x1 S1x1 S8192x1 [1] [0] [0] [1] [] []
  scatter_S65536x1_S1048576x1_S1048576x1_1_0_0_1_wf : ScatterDims.WF S65536x1 S1048576x1 S1048576x1 [1] [0] [0] 1
  dot_S8192x64_S8192x1_S64x1_0_0_1_1_n_n_wf : DotDims.WF S8192x64 S8192x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S65536x32.size a
  hwx0_0 : ∀ i : grid0.Coords, EltTy.bits .f32 = 32 ∨ (Rect.block (s := S65536x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S65536x64.size a
  hwx0_2 : ∀ i : grid0.Coords, EltTy.bits .bf16 = 32 ∨ (Rect.block (s := S65536x64) S8192x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1048576x64.size a
  hwx1_0 : ∀ i : grid1.Coords, EltTy.bits .bf16 = 32 ∨ (Rect.block (s := S1048576x64) S8192x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x8.size a ≤ S1048576x8.size a
  hwx1_1 : ∀ i : grid1.Coords, EltTy.bits .f32 = 32 ∨ (Rect.block (s := S1048576x8) S8192x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8192x64.size a ≤ S1048576x64.size a
  hwx1_6 : ∀ i : grid1.Coords, EltTy.bits .bf16 = 32 ∨ (Rect.block (s := S1048576x64) S8192x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S65536x64.size a
  hwx2_0 : ∀ i : grid2.Coords, EltTy.bits .f32 = 32 ∨ (Rect.block (s := S65536x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S65536x64.size a
  hwx2_3 : ∀ i : grid2.Coords, EltTy.bits .bf16 = 32 ∨ (Rect.block (s := S65536x64) S8192x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S1048576x64.size a
  hwx3_0 : ∀ i : grid3.Coords, EltTy.bits .bf16 = 32 ∨ (Rect.block (s := S1048576x64) S8192x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x8.size a ≤ S1048576x8.size a
  hwx3_1 : ∀ i : grid3.Coords, EltTy.bits .f32 = 32 ∨ (Rect.block (s := S1048576x8) S8192x8.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8x64.size a ≤ S8x64.size a
  hwx3_2 : ∀ i : grid3.Coords, EltTy.bits .f32 = 32 ∨ (Rect.block (s := S8x64) S8x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8192x64.size a ≤ S1048576x64.size a
  hwx3_6 : ∀ i : grid3.Coords, EltTy.bits .bf16 = 32 ∨ (Rect.block (s := S1048576x64) S8192x64.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S65536x64.size a
  hwx4_0 : ∀ i : grid4.Coords, EltTy.bits .f32 = 32 ∨ (Rect.block (s := S65536x64) S8192x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x1.size a ≤ S65536x1.size a
  hwx4_3 : ∀ i : grid4.Coords, EltTy.bits .f32 = 32 ∨ (Rect.block (s := S65536x1) S8192x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x1.size a ≤ S1048576x1.size a
  hwx5_0 : ∀ i : grid5.Coords, EltTy.bits .f32 = 32 ∨ (Rect.block (s := S1048576x1) S8192x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x8.size a ≤ S1048576x8.size a
  hwx5_1 : ∀ i : grid5.Coords, EltTy.bits .f32 = 32 ∨ (Rect.block (s := S1048576x8) S8192x8.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S8x1.size a ≤ S8x1.size a
  hwx5_2 : ∀ i : grid5.Coords, EltTy.bits .f32 = 32 ∨ (Rect.block (s := S8x1) S8x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1.size a ≤ S1x1.size a
  hwx5_5 : ∀ i : grid5.Coords, EltTy.bits .f32 = 32 ∨ (Rect.block (s := S1x1) S1x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8192x1.size a ≤ S1048576x1.size a
  hwx5_6 : ∀ i : grid5.Coords, EltTy.bits .f32 = 32 ∨ (Rect.block (s := S1048576x1) S8192x1.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x1.size a ≤ S65536x1.size a
  hwx6_0 : ∀ i : grid6.Coords, EltTy.bits .f32 = 32 ∨ (Rect.block (s := S65536x1) S8192x1.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8192.size a ≤ S65536.size a
  hwx6_1 : ∀ i : grid6.Coords, EltTy.bits .i32 = 32 ∨ (Rect.block (s := S65536) S8192.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)

variable [Facts₀]

def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def dot_S8192x8_S8x64_S8192x64_1_0_0_1_n_n : DotDims S8192x8 S8x64 S8192x64 where
  lhsContracting := [1]
  rhsContracting := [0]
  lhsNonContracting := [0]
  rhsNonContracting := [1]
  lhsBatch := []
  rhsBatch := []
  wf := dot_S8192x8_S8x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def gather_S65536x1_S1048576x1_S1048576x1_1_0_n_n_0_1_11 : GatherDims S65536x1 S1048576x1 S1048576x1 where
  offsetDims := [1]
  collapsedSliceDims := [0]
  operandBatchingDims := []
  startIndicesBatchingDims := []
  startIndexMap := [0]
  indexVectorDim := 1
  sliceSizes := ![1, 1]
  wf := gather_S65536x1_S1048576x1_S1048576x1_1_0_n_n_0_1_11_wf
def dot_S8192x8_S8x1_S8192x1_1_0_0_1_n_n : DotDims S8192x8 S8x1 S8192x1 where
  lhsContracting := [1]
  rhsContracting := [0]
  lhsNonContracting := [0]
  rhsNonContracting := [1]
  lhsBatch := []
  rhsBatch := []
  wf := dot_S8192x8_S8x1_S8192x1_1_0_0_1_n_n_wf
def dot_S8192x1_S1x1_S8192x1_1_0_0_1_n_n : DotDims S8192x1 S1x1 S8192x1 where
  lhsContracting := [1]
  rhsContracting := [0]
  lhsNonContracting := [0]
  rhsNonContracting := [1]
  lhsBatch := []
  rhsBatch := []
  wf := dot_S8192x1_S1x1_S8192x1_1_0_0_1_n_n_wf
def scatter_S65536x1_S1048576x1_S1048576x1_1_0_0_1 : ScatterDims S65536x1 S1048576x1 S1048576x1 where
  updateWindowDims := [1]
  insertedWindowDims := [0]
  scatterDimsToOperandDims := [0]
  indexVectorDim := 1
  wf := scatter_S65536x1_S1048576x1_S1048576x1_1_0_0_1_wf
def dot_S8192x64_S8192x1_S64x1_0_0_1_1_n_n : DotDims S8192x64 S8192x1 S64x1 where
  lhsContracting := [0]
  rhsContracting := [0]
  lhsNonContracting := [1]
  rhsNonContracting := [1]
  lhsBatch := []
  rhsBatch := []
  wf := dot_S8192x64_S8192x1_S64x1_0_0_1_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S8x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S8192x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v14) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S8192x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v23) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S8192x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S8x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v26) S8192x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v30) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S8192x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v39) S8192x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S8192x8.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg19) S8x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v40) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg21) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v41) S1x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v42) S8192x1.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v45) S8192x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S8192.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v46) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v47) S64x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

class Facts : Prop extends Facts₀ where

variable [Facts]
-- ==== ReferenceIdeal.lean ====
abbrev S65536x32 : Shape := ⟨2, ![65536, 32]⟩
abbrev S1048576x8 : Shape := ⟨2, ![1048576, 8]⟩
abbrev S1048576 : Shape := ⟨1, ![1048576]⟩
abbrev S65536 : Shape := ⟨1, ![65536]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S8x64 : Shape := ⟨2, ![8, 64]⟩
abbrev S8x1 : Shape := ⟨2, ![8, 1]⟩
abbrev S1x1 : Shape := ⟨2, ![1, 1]⟩
abbrev S1048576x64 : Shape := ⟨2, ![1048576, 64]⟩
abbrev S1x64 : Shape := ⟨2, ![1, 64]⟩
abbrev S_ : Shape := ⟨0, ![]⟩
abbrev S1048576x1 : Shape := ⟨2, ![1048576, 1]⟩
abbrev S65536x64 : Shape := ⟨2, ![65536, 64]⟩
abbrev S65536x1 : Shape := ⟨2, ![65536, 1]⟩

abbrev nBuf : Space → Nat
  | .hbm => 120
  | .vmem => 0
  | .smem => 0
  | _ => 0

abbrev bufTy : (tb : Table) → Fin (tcTables nBuf tb) → BufTy
  | .hbm, ⟨0, _⟩ => ⟨S65536x32, .f32⟩
  | .hbm, ⟨1, _⟩ => ⟨S1048576x8, .f32⟩
  | .hbm, ⟨2, _⟩ => ⟨S1048576, .i32⟩
  | .hbm, ⟨3, _⟩ => ⟨S1048576, .i32⟩
  | .hbm, ⟨4, _⟩ => ⟨S65536, .i32⟩
  | .hbm, ⟨5, _⟩ => ⟨S32x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S8x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S8x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S8x1, .f32⟩
  | .hbm, ⟨20, _⟩ => ⟨S1, .f32⟩
  | .hbm, ⟨21, _⟩ => ⟨S1x1, .f32⟩
  | .hbm, ⟨22, _⟩ => ⟨S1, .f32⟩
  | .hbm, ⟨23, _⟩ => ⟨S1048576x64, .f32⟩
  | .hbm, ⟨24, _⟩ => ⟨S1x64, .f32⟩
  | .hbm, ⟨25, _⟩ => ⟨S1048576x64, .f32⟩
  | .hbm, ⟨26, _⟩ => ⟨S1048576x64, .f32⟩
  | .hbm, ⟨27, _⟩ => ⟨S_, .f32⟩
  | .hbm, ⟨28, _⟩ => ⟨S1048576x64, .f32⟩
  | .hbm, ⟨29, _⟩ => ⟨S1048576x64, .f32⟩
  | .hbm, ⟨30, _⟩ => ⟨S1048576x64, .f32⟩
  | .hbm, ⟨31, _⟩ => ⟨S1x64, .f32⟩
  | .hbm, ⟨32, _⟩ => ⟨S1048576x64, .f32⟩
  | .hbm, ⟨33, _⟩ => ⟨S1048576x64, .f32⟩
  | .hbm, ⟨34, _⟩ => ⟨S1048576x64, .f32⟩
  | .hbm, ⟨35, _⟩ => ⟨S1x64, .f32⟩
  | .hbm, ⟨36, _⟩ => ⟨S1048576x64, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S1048576x64, .f32⟩
  | .hbm, ⟨42, _⟩ => ⟨S1x64, .f32⟩
  | .hbm, ⟨43, _⟩ => ⟨S1048576x64, .f32⟩
  | .hbm, ⟨44, _⟩ => ⟨S1048576x64, .f32⟩
  | .hbm, ⟨45, _⟩ => ⟨S1048576x1, .f32⟩
  | .hbm, ⟨46, _⟩ => ⟨S1x1, .f32⟩
  | .hbm, ⟨47, _⟩ => ⟨S1048576x1, .f32⟩
  | .hbm, ⟨48, _⟩ => ⟨S1048576x1, .f32⟩
  | .hbm, ⟨49, _⟩ => ⟨S_, .f32⟩
  | .hbm, ⟨50, _⟩ => ⟨S1048576x1, .f32⟩
  | .hbm, ⟨51, _⟩ => ⟨S1048576x1, .f32⟩
  | .hbm, ⟨52, _⟩ => ⟨S1048576x1, .f32⟩
  | .hbm, ⟨53, _⟩ => ⟨S1x1, .f32⟩
  | .hbm, ⟨54, _⟩ => ⟨S1048576x1, .f32⟩
  | .hbm, ⟨55, _⟩ => ⟨S1048576x1, .f32⟩
  | .hbm, ⟨56, _⟩ => ⟨S65536x64, .f32⟩
  | .hbm, ⟨57, _⟩ => ⟨S_, .i32⟩
  | .hbm, ⟨58, _⟩ => ⟨S1048576, .i32⟩
  | .hbm, ⟨59, _⟩ => ⟨S1048576, .i1⟩
  | .hbm, ⟨60, _⟩ => ⟨S_, .i32⟩
  | .hbm, ⟨61, _⟩ => ⟨S1048576, .i32⟩
  | .hbm, ⟨62, _⟩ => ⟨S1048576, .i32⟩
  | .hbm, ⟨63, _⟩ => ⟨S1048576, .i32⟩
  | .hbm, ⟨64, _⟩ => ⟨S1048576x1, .i32⟩
  | .hbm, ⟨65, _⟩ => ⟨S1048576x64, .f32⟩
  | .hbm, ⟨66, _⟩ => ⟨S1048576x64, .f32⟩
  | .hbm, ⟨67, _⟩ => ⟨S_, .f32⟩
  | .hbm, ⟨68, _⟩ => ⟨S65536x64, .f32⟩
  | .hbm, ⟨69, _⟩ => ⟨S1048576x1, .i32⟩
  | .hbm, ⟨70, _⟩ => ⟨S65536x64, .f32⟩
  | .hbm, ⟨71, _⟩ => ⟨S1x64, .f32⟩
  | .hbm, ⟨72, _⟩ => ⟨S65536x64, .f32⟩
  | .hbm, ⟨73, _⟩ => ⟨S65536x64, .f32⟩
  | .hbm, ⟨74, _⟩ => ⟨S_, .f32⟩
  | .hbm, ⟨75, _⟩ => ⟨S65536x64, .f32⟩
  | .hbm, ⟨76, _⟩ => ⟨S65536x64, .f32⟩
  | .hbm, ⟨77, _⟩ => ⟨S65536x64, .f32⟩
  | .hbm, ⟨78, _⟩ => ⟨S_, .i32⟩
  | .hbm, ⟨79, _⟩ => ⟨S1048576, .i32⟩
  | .hbm, ⟨80, _⟩ => ⟨S1048576, .i1⟩
  | .hbm, ⟨81, _⟩ => ⟨S_, .i32⟩
  | .hbm, ⟨82, _⟩ => ⟨S1048576, .i32⟩
  | .hbm, ⟨83, _⟩ => ⟨S1048576, .i32⟩
  | .hbm, ⟨84, _⟩ => ⟨S1048576, .i32⟩
  | .hbm, ⟨85, _⟩ => ⟨S1048576x1, .i32⟩
  | .hbm, ⟨86, _⟩ => ⟨S1048576x64, .f32⟩
  | .hbm, ⟨87, _⟩ => ⟨S1048576x64, .f32⟩
  | .hbm, ⟨88, _⟩ => ⟨S_, .f32⟩
  | .hbm, ⟨89, _⟩ => ⟨S65536x64, .f32⟩
  | .hbm, ⟨90, _⟩ => ⟨S1048576x1, .i32⟩
  | .hbm, ⟨91, _⟩ => ⟨S65536x64, .f32⟩
  | .hbm, ⟨92, _⟩ => ⟨S1x64, .f32⟩
  | .hbm, ⟨93, _⟩ => ⟨S65536x64, .f32⟩
  | .hbm, ⟨94, _⟩ => ⟨S65536x64, .f32⟩
  | .hbm, ⟨95, _⟩ => ⟨S_, .f32⟩
  | .hbm, ⟨96, _⟩ => ⟨S65536x64, .f32⟩
  | .hbm, ⟨97, _⟩ => ⟨S65536x64, .f32⟩
  | .hbm, ⟨98, _⟩ => ⟨S65536x1, .f32⟩
  | .hbm, ⟨99, _⟩ => ⟨S_, .i32⟩
  | .hbm, ⟨100, _⟩ => ⟨S1048576, .i32⟩
  | .hbm, ⟨101, _⟩ => ⟨S1048576, .i1⟩
  | .hbm, ⟨102, _⟩ => ⟨S_, .i32⟩
  | .hbm, ⟨103, _⟩ => ⟨S1048576, .i32⟩
  | .hbm, ⟨104, _⟩ => ⟨S1048576, .i32⟩
  | .hbm, ⟨105, _⟩ => ⟨S1048576, .i32⟩
  | .hbm, ⟨106, _⟩ => ⟨S1048576x1, .i32⟩
  | .hbm, ⟨107, _⟩ => ⟨S1048576x1, .f32⟩
  | .hbm, ⟨108, _⟩ => ⟨S1048576x1, .f32⟩
  | .hbm, ⟨109, _⟩ => ⟨S_, .f32⟩
  | .hbm, ⟨110, _⟩ => ⟨S65536x1, .f32⟩
  | .hbm, ⟨111, _⟩ => ⟨S1048576x1, .i32⟩
  | .hbm, ⟨112, _⟩ => ⟨S65536x1, .f32⟩
  | .hbm, ⟨113, _⟩ => ⟨S1x1, .f32⟩
  | .hbm, ⟨114, _⟩ => ⟨S65536x1, .f32⟩
  | .hbm, ⟨115, _⟩ => ⟨S65536x1, .f32⟩
  | .hbm, ⟨116, _⟩ => ⟨S_, .f32⟩
  | .hbm, ⟨117, _⟩ => ⟨S64x1, .f32⟩
  | .hbm, ⟨118, _⟩ => ⟨S65536x1, .i32⟩
  | .hbm, ⟨119, _⟩ => ⟨S64x1, .f32⟩
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call1_cst : Ref sig .tc := ⟨.hbm, 38, rfl⟩
abbrev main_call1_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_call2_cst : Ref sig .tc := ⟨.hbm, 49, rfl⟩
abbrev main_call2_v0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c : Ref sig .tc := ⟨.hbm, 57, rfl⟩
abbrev main_v28 : Ref sig .tc := ⟨.hbm, 58, rfl⟩
abbrev main_v29 : Ref sig .tc := ⟨.hbm, 59, rfl⟩
abbrev main_c_0 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_call3_cst : Ref sig .tc := ⟨.hbm, 74, rfl⟩
abbrev main_call3_v0 : Ref sig .tc := ⟨.hbm, 75, rfl⟩
abbrev main_v42 : Ref sig .tc := ⟨.hbm, 76, rfl⟩
abbrev main_v43 : Ref sig .tc := ⟨.hbm, 77, rfl⟩
abbrev main_c_1 : Ref sig .tc := ⟨.hbm, 78, rfl⟩
abbrev main_v44 : Ref sig .tc := ⟨.hbm, 79, rfl⟩
abbrev main_v45 : Ref sig .tc := ⟨.hbm, 80, rfl⟩
abbrev main_c_2 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_3 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call4_cst : Ref sig .tc := ⟨.hbm, 95, rfl⟩
abbrev main_call4_v0 : Ref sig .tc := ⟨.hbm, 96, rfl⟩
abbrev main_v58 : Ref sig .tc := ⟨.hbm, 97, rfl⟩
abbrev main_v59 : Ref sig .tc := ⟨.hbm, 98, rfl⟩
abbrev main_c_4 : Ref sig .tc := ⟨.hbm, 99, rfl⟩
abbrev main_v60 : Ref sig .tc := ⟨.hbm, 100, rfl⟩
abbrev main_v61 : Ref sig .tc := ⟨.hbm, 101, rfl⟩
abbrev main_c_5 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_6 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_7 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  bcast_S_S1048576x1 : S_.BroadcastsInDim S1048576x1 (![] : Fin 0 → Fin S1048576x1.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x64 : S_.BroadcastsInDim S65536x64 (![] : Fin 0 → Fin S65536x64.rank)
  bcast_S1x64_S65536x64_0_1 : S1x64.BroadcastsInDim S65536x64 (![0, 1] : Fin 2 → Fin S65536x64.rank)
  bcast_S_S65536x1 : S_.BroadcastsInDim S65536x1 (![] : Fin 0 → Fin S65536x1.rank)
  bcast_S1x1_S65536x1_0_1 : S1x1.BroadcastsInDim S65536x1 (![0, 1] : Fin 2 → Fin S65536x1.rank)
  bcast_S_S64x1 : S_.BroadcastsInDim S64x1 (![] : Fin 0 → Fin S64x1.rank)
  bcast_S65536_S65536x1_0 : S65536.BroadcastsInDim S65536x1 (![0] : Fin 1 → Fin S65536x1.rank)
  dot_S1048576x8_S8x64_S1048576x64_1_0_0_1_n_n_wf : DotDims.WF S1048576x8 S8x64 S1048576x64 [1] [0] [0] [1] [] []
  dot_S1048576x64_S64x64_S1048576x64_1_0_0_1_n_n_wf : DotDims.WF S1048576x64 S64x64 S1048576x64 [1] [0] [0] [1] [] []
  dot_S1048576x8_S8x1_S1048576x1_1_0_0_1_n_n_wf : DotDims.WF S1048576x8 S8x1 S1048576x1 [1] [0] [0] [1] [] []
  dot_S1048576x1_S1x1_S1048576x1_1_0_0_1_n_n_wf : DotDims.WF S1048576x1 S1x1 S1048576x1 [1] [0] [0] [1] [] []
  dot_S65536x32_S32x64_S65536x64_1_0_0_1_n_n_wf : DotDims.WF S65536x32 S32x64 S65536x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S65536x64_S64x64_S65536x64_1_0_0_1_n_n_wf : DotDims.WF S65536x64 S64x64 S65536x64 [1] [0] [0] [1] [] []
  dot_S65536x64_S64x1_S65536x1_1_0_0_1_n_n_wf : DotDims.WF S65536x64 S64x1 S65536x1 [1] [0] [0] [1] [] []
  gather_S65536x1_S1048576x1_S1048576x1_1_0_n_n_0_1_11_wf : GatherDims.WF S65536x1 S1048576x1 S1048576x1 [1] [0] [] [0] [] 1 ![1, 1]
  scatter_S65536x1_S1048576x1_S1048576x1_1_0_0_1_wf : ScatterDims.WF S65536x1 S1048576x1 S1048576x1 [1] [0] [0] 1
  scatter_S64x1_S65536x1_S65536x1_1_0_0_1_wf : ScatterDims.WF S64x1 S65536x1 S65536x1 [1] [0] [0] 1

variable [Facts₀]

def dot_S1048576x8_S8x64_S1048576x64_1_0_0_1_n_n : DotDims S1048576x8 S8x64 S1048576x64 where
  lhsContracting := [1]
  rhsContracting := [0]
  lhsNonContracting := [0]
  rhsNonContracting := [1]
  lhsBatch := []
  rhsBatch := []
  wf := dot_S1048576x8_S8x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x8_S8x1_S1048576x1_1_0_0_1_n_n : DotDims S1048576x8 S8x1 S1048576x1 where
  lhsContracting := [1]
  rhsContracting := [0]
  lhsNonContracting := [0]
  rhsNonContracting := [1]
  lhsBatch := []
  rhsBatch := []
  wf := dot_S1048576x8_S8x1_S1048576x1_1_0_0_1_n_n_wf
def dot_S1048576x1_S1x1_S1048576x1_1_0_0_1_n_n : DotDims S1048576x1 S1x1 S1048576x1 where
  lhsContracting := [1]
  rhsContracting := [0]
  lhsNonContracting := [0]
  rhsNonContracting := [1]
  lhsBatch := []
  rhsBatch := []
  wf := dot_S1048576x1_S1x1_S1048576x1_1_0_0_1_n_n_wf
def dot_S65536x32_S32x64_S65536x64_1_0_0_1_n_n : DotDims S65536x32 S32x64 S65536x64 where
  lhsContracting := [1]
  rhsContracting := [0]
  lhsNonContracting := [0]
  rhsNonContracting := [1]
  lhsBatch := []
  rhsBatch := []
  wf := dot_S65536x32_S32x64_S65536x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf
def gather_S65536x1_S1048576x1_S1048576x1_1_0_n_n_0_1_11 : GatherDims S65536x1 S1048576x1 S1048576x1 where
  offsetDims := [1]
  collapsedSliceDims := [0]
  operandBatchingDims := []
  startIndicesBatchingDims := []
  startIndexMap := [0]
  indexVectorDim := 1
  sliceSizes := ![1, 1]
  wf := gather_S65536x1_S1048576x1_S1048576x1_1_0_n_n_0_1_11_wf
def scatter_S65536x1_S1048576x1_S1048576x1_1_0_0_1 : ScatterDims S65536x1 S1048576x1 S1048576x1 where
  updateWindowDims := [1]
  insertedWindowDims := [0]
  scatterDimsToOperandDims := [0]
  indexVectorDim := 1
  wf := scatter_S65536x1_S1048576x1_S1048576x1_1_0_0_1_wf
def scatter_S64x1_S65536x1_S65536x1_1_0_0_1 : ScatterDims S64x1 S65536x1 S65536x1 where
  updateWindowDims := [1]
  insertedWindowDims := [0]
  scatterDimsToOperandDims := [0]
  indexVectorDim := 1
  wf := scatter_S64x1_S65536x1_S65536x1_1_0_0_1_wf

class Facts : Prop extends Facts₀ where

variable [Facts]
-- ==== Proof.K.RegA0.lean ====
import proofs.«408255_j5076651344425_4_alg».proof.Proof.Gen.Kernel.Launch
import proofs.«408255_j5076651344425_4_alg».proof.Proof.Gen.Kernel.Skeleton
import proofs.«408255_j5076651344425_4_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring

noncomputable section

namespace Cert.Kernel.GenH

open Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

section
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S8192x32 := Rect.unit (s := S8192x32) ![0, 0] S8192x32.size inb_S8192x32_S8192x32_0_0
abbrev r0_1 : Rect S32x64 := Rect.unit (s := S32x64) ![0, 0] S32x64.size inb_S32x64_S32x64_0_0
abbrev r0_2 : Rect S8192x64 := Rect.unit (s := S8192x64) ![0, 0] S8192x64.size inb_S8192x64_S8192x64_0_0

def out0_2 (x0 : Vec F S8192x32 .f32) (x1 : Vec F S32x64 .f32) : Vec F S8192x64 .bf16 :=
  View.canon [⟨r0_2, k0_pay1 (View.ld x0 r0_0) (View.ld x1 r0_1)⟩]

-- The written rectangle is the whole shape, so the output reads as the payload.
theorem sound_kernel0 (c : Dev nD) {i arg0 harg0 arg1 harg1 arg2 harg2 x0 x1} (R S : sProp 𝕄) :
    iprop(R ∗ S ∗ owns c.tc arg0 fullShare x0 ∗ owns c.tc arg1 fullShare x1 ∗ ∃ d, owns c.tc arg2 fullShare d)
      ⊢ wp frame (wpE (defs₀ (F := F)) Variants.none c none) Set.univ (cc0_kernel i arg0 harg0 arg1 harg1 arg2 harg2) fun _ =>
        iprop(R ∗ S ∗ owns c.tc arg0 fullShare x0 ∗ owns c.tc arg1 fullShare x1 ∗ owns c.tc arg2 fullShare (out0_2 x0 x1)) := by
  simp only [cc0_kernel_eq_skeleton]; unfold cc0_kernel_skel
  rw [owns_eq_rep _ arg0, owns_eq_rep _ arg1]
  unfold owns
  iintro ⟨HR, HS, H0, H1, %d2, %f2, -, H2⟩
  sl_exec
  sl_step
  iframe HR HS H0 H1
  iexists _; isplitr
  swap; · iexact H2
  ipureintro
  simp only [View.readAt_rep]
  exact View.read_writes_eq_canon _ _ _ (View.cover_of_tiled _ S8192x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by
  dsimp only [dat0]

theorem before0 (c : Dev nD) : ∀ w : Fin cfg0.W, w ≠ 2 → ∀ t d, (dat0 V c).before w t d = (dat0 V c).fetched w t d
  | ⟨0, _⟩, _ | ⟨1, _⟩, _ => (dat0 V c).before_in_eq_fetched _ rfl (fun _ => rfl) (fun _ _ _ => rfl) (fun _ => rfl)
  | ⟨2, _⟩, h => absurd rfl h

theorem body_obligation0 (c : Dev nD) : BodyObligation (dat0 (F := F) V c) (defs₀ (F := F)) Variants.none () Set.univ := fun t => by
  rw [bigSep_W0, bigSep_W0]
  simp only [before0 V c 0 (by decide), before0 V c 1 (by decide)]
  dsimp only [dat0, Dat.fetched, Dat.blockOf]
  show _ ⊢ wp _ _ _ (bodyAt0 t) _
  iintro ⟨HΦ, Ho, ⟨%d0, H0⟩, ⟨%d1, H1⟩, %d2, H2⟩
  iapply (sound_kernel0 c (x0 := iblk0 V c 0 t) (x1 := iblk0 V c 1 t) _ _)
  iframe HΦ
  isplitl [Ho]; · iexact Ho
  isplitl [H0]; · iexact H0
  isplitl [H1]; · iexact H1
  iexists _; iexact H2

end

end Cert.Kernel.GenH
-- ==== Proof.K.RegA1.lean ====
import proofs.«408255_j5076651344425_4_alg».proof.Proof.Gen.Kernel.Launch
import proofs.«408255_j5076651344425_4_alg».proof.Proof.Gen.Kernel.Skeleton
import proofs.«408255_j5076651344425_4_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.GenH

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S8192x64 := Rect.unit (s := S8192x64) ![0, 0] S8192x64.size inb_S8192x64_S8192x64_0_0
abbrev r1_1 : Rect S8192x8 := Rect.unit (s := S8192x8) ![0, 0] S8192x8.size inb_S8192x8_S8192x8_0_0
abbrev r1_2 : Rect S8x64 := Rect.unit (s := S8x64) ![0, 0] S8x64.size inb_S8x64_S8x64_0_0
abbrev r1_3 : Rect S1x64 := Rect.unit (s := S1x64) ![0, 0] S1x64.size inb_S1x64_S1x64_0_0
abbrev r1_4 : Rect S64x64 := Rect.unit (s := S64x64) ![0, 0] S64x64.size inb_S64x64_S64x64_0_0
abbrev r1_5 : Rect S1x64 := Rect.unit (s := S1x64) ![0, 0] S1x64.size inb_S1x64_S1x64_0_0
abbrev r1_6 : Rect S8192x64 := Rect.unit (s := S8192x64) ![0, 0] S8192x64.size inb_S8192x64_S8192x64_0_0

def out1_6 (x0 : Vec F S8192x64 .bf16) (x1 : Vec F S8192x8 .f32) (x2 : Vec F S8x64 .f32) (x3 : Vec F S1x64 .f32) (x4 : Vec F S64x64 .f32) (x5 : Vec F S1x64 .f32) : Vec F S8192x64 .bf16 :=
  View.canon [⟨r1_6, k1_pay1 (View.ld x0 r1_0) (View.ld x1 r1_1) (View.ld x2 r1_2) (View.ld x3 r1_3) (View.ld x4 r1_4) (View.ld x5 r1_5)⟩]

theorem sound_kernel1 (c : Dev nD) {i arg0 harg0 arg1 harg1 arg2 harg2 arg3 harg3 arg4 harg4 arg5 harg5 arg6 harg6 x0 x1 x2 x3 x4 x5} (R S : sProp 𝕄) :
    iprop(R ∗ S ∗ owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ ∃ d, owns c.tc arg6 fullShare d)
      ⊢ wp frame (wpE (defs₀ (F := F)) Variants.none c none) Set.univ (cc1_kernel i arg0 harg0 arg1 harg1 arg2 harg2 arg3 harg3 arg4 harg4 arg5 harg5 arg6 harg6) fun _ =>
        iprop(R ∗ S ∗ owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare (out1_6 x0 x1 x2 x3 x4 x5)) := by
  simp only [cc1_kernel_eq_skeleton]; unfold cc1_kernel_skel
  rw [owns_eq_rep _ arg0, owns_eq_rep _ arg1, owns_eq_rep _ arg2, owns_eq_rep _ arg3, owns_eq_rep _ arg4, owns_eq_rep _ arg5]
  unfold owns
  iintro ⟨HR, HS, H0, H1, H2, H3, H4, H5, %d6, %f6, -, H6⟩
  sl_exec
  sl_step
  iframe HR HS H0 H1 H2 H3 H4 H5
  iexists _; isplitr
  swap; · iexact H6
  ipureintro
  simp only [View.readAt_rep]
  exact View.read_writes_eq_canon _ _ _ (View.cover_of_tiled _ S8192x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1 (c : Dev nD) : ∀ w : Fin cfg1.W, w ≠ 6 → ∀ t d, (dat1 V c).before w t d = (dat1 V c).fetched w t d
  | ⟨0, _⟩, _ | ⟨1, _⟩, _ | ⟨2, _⟩, _ | ⟨3, _⟩, _ | ⟨4, _⟩, _ | ⟨5, _⟩, _ => (dat1 V c).before_in_eq_fetched _ rfl (fun _ => rfl) (fun _ _ _ => rfl) (fun _ => rfl)
  | ⟨6, _⟩, h => absurd rfl h

theorem body_obligation1 (c : Dev nD) : BodyObligation (dat1 (F := F) V c) (defs₀ (F := F)) Variants.none () Set.univ := fun t => by
  rw [bigSep_W1, bigSep_W1]
  simp only [before1 V c 0 (by decide), before1 V c 1 (by decide), before1 V c 2 (by decide), before1 V c 3 (by decide), before1 V c 4 (by decide), before1 V c 5 (by decide)]
  dsimp only [dat1, Dat.fetched, Dat.blockOf]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, %d6, H6⟩
  iapply (sound_kernel1 c (x0 := iblk1 V c 0 t) (x1 := iblk1 V c 1 t) (x2 := iblk1 V c 2 t) (x3 := iblk1 V c 3 t) (x4 := iblk1 V c 4 t) (x5 := iblk1 V c 5 t) _ _)
  iframe HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

end Region1

end Cert.Kernel.GenH
-- ==== Proof.K.RegA2.lean ====
import proofs.«408255_j5076651344425_4_alg».proof.Proof.Gen.Kernel.Launch
import proofs.«408255_j5076651344425_4_alg».proof.Proof.Gen.Kernel.Skeleton
import proofs.«408255_j5076651344425_4_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring

noncomputable section

namespace Cert.Kernel.GenH

open Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

section
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S8192x64 := Rect.unit (s := S8192x64) ![0, 0] S8192x64.size inb_S8192x64_S8192x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

def out2_3 (x0 : Vec F S8192x64 .f32) (x1 : Vec F S64x64 .f32) (x2 : Vec F S1x64 .f32) : Vec F S8192x64 .bf16 :=
  View.canon [⟨r2_0, k2_pay1 (View.ld x0 r2_0) (View.ld x2 r2_2) (View.ld x1 r2_1)⟩]

-- The written rectangle is the whole shape, so the output reads as the payload.
theorem sound_kernel2 (c : Dev nD) {i arg0 harg0 arg1 harg1 arg2 harg2 arg3 harg3 x0 x1 x2} (R S : sProp 𝕄) :
    iprop(R ∗ S ∗ owns c.tc arg0 fullShare x0 ∗ owns c.tc arg1 fullShare x1 ∗ owns c.tc arg2 fullShare x2 ∗ ∃ d, owns c.tc arg3 fullShare d)
      ⊢ wp frame (wpE (defs₀ (F := F)) Variants.none c none) Set.univ (cc2_kernel i arg0 harg0 arg1 harg1 arg2 harg2 arg3 harg3) fun _ =>
        iprop(R ∗ S ∗ owns c.tc arg0 fullShare x0 ∗ owns c.tc arg1 fullShare x1 ∗ owns c.tc arg2 fullShare x2 ∗ owns c.tc arg3 fullShare (out2_3 x0 x1 x2)) := by
  simp only [cc2_kernel_eq_skeleton]; unfold cc2_kernel_skel
  rw [owns_eq_rep _ arg0, owns_eq_rep _ arg1, owns_eq_rep _ arg2]
  unfold owns
  iintro ⟨HR, HS, H0, H1, H2, %d3, %f3, -, H3⟩
  sl_exec
  sl_step
  iframe HR HS H0 H1 H2
  iexists _; isplitr
  swap; · iexact H3
  ipureintro
  simp only [View.readAt_rep]
  exact View.read_writes_eq_canon _ _ _ (View.cover_of_tiled _ S8192x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by
  dsimp only [dat2]

theorem before2 (c : Dev nD) : ∀ w : Fin cfg2.W, w ≠ 3 → ∀ t d, (dat2 V c).before w t d = (dat2 V c).fetched w t d
  | ⟨0, _⟩, _ | ⟨1, _⟩, _ | ⟨2, _⟩, _ => (dat2 V c).before_in_eq_fetched _ rfl (fun _ => rfl) (fun _ _ _ => rfl) (fun _ => rfl)
  | ⟨3, _⟩, h => absurd rfl h

theorem body_obligation2 (c : Dev nD) : BodyObligation (dat2 (F := F) V c) (defs₀ (F := F)) Variants.none () Set.univ := fun t => by
  rw [bigSep_W2, bigSep_W2]
  simp only [before2 V c 0 (by decide), before2 V c 1 (by decide), before2 V c 2 (by decide)]
  dsimp only [dat2, Dat.fetched, Dat.blockOf]
  show _ ⊢ wp _ _ _ (bodyAt2 t) _
  iintro ⟨HΦ, Ho, ⟨%d0, H0⟩, ⟨%d1, H1⟩, ⟨%d2, H2⟩, %d3, H3⟩
  iapply (sound_kernel2 c (x0 := iblk2 V c 0 t) (x1 := iblk2 V c 1 t) (x2 := iblk2 V c 2 t) _ _)
  iframe HΦ
  isplitl [Ho]; · iexact Ho
  isplitl [H0]; · iexact H0
  isplitl [H1]; · iexact H1
  isplitl [H2]; · iexact H2
  iexists _; iexact H3

end

end Cert.Kernel.GenH
-- ==== Proof.K.RegA3.lean ====
import proofs.«408255_j5076651344425_4_alg».proof.Proof.Gen.Kernel.Launch
import proofs.«408255_j5076651344425_4_alg».proof.Proof.Gen.Kernel.Skeleton
import proofs.«408255_j5076651344425_4_alg».proof.Proof.Gen.Kernel.Points
import proofs.«408255_j5076651344425_4_alg».proof.Proof.K.RegA1
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.GenH

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S8192x64 := Rect.unit (s := S8192x64) ![0, 0] S8192x64.size inb_S8192x64_S8192x64_0_0
abbrev r3_1 : Rect S8192x8 := Rect.unit (s := S8192x8) ![0, 0] S8192x8.size inb_S8192x8_S8192x8_0_0
abbrev r3_2 : Rect S8x64 := Rect.unit (s := S8x64) ![0, 0] S8x64.size inb_S8x64_S8x64_0_0
abbrev r3_3 : Rect S1x64 := Rect.unit (s := S1x64) ![0, 0] S1x64.size inb_S1x64_S1x64_0_0
abbrev r3_4 : Rect S64x64 := Rect.unit (s := S64x64) ![0, 0] S64x64.size inb_S64x64_S64x64_0_0
abbrev r3_5 : Rect S1x64 := Rect.unit (s := S1x64) ![0, 0] S1x64.size inb_S1x64_S1x64_0_0
abbrev r3_6 : Rect S8192x64 := Rect.unit (s := S8192x64) ![0, 0] S8192x64.size inb_S8192x64_S8192x64_0_0

def out3_6 (x0 : Vec F S8192x64 .bf16) (x1 : Vec F S8192x8 .f32) (x2 : Vec F S8x64 .f32) (x3 : Vec F S1x64 .f32) (x4 : Vec F S64x64 .f32) (x5 : Vec F S1x64 .f32) : Vec F S8192x64 .bf16 :=
  View.canon [⟨r3_6, k3_pay1 (View.ld x0 r3_0) (View.ld x1 r3_1) (View.ld x2 r3_2) (View.ld x3 r3_3) (View.ld x4 r3_4) (View.ld x5 r3_5)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3 (c : Dev nD) : ∀ w : Fin cfg3.W, w ≠ 6 → ∀ t d, (dat3 V c).before w t d = (dat3 V c).fetched w t d
  | ⟨0, _⟩, _ | ⟨1, _⟩, _ | ⟨2, _⟩, _ | ⟨3, _⟩, _ | ⟨4, _⟩, _ | ⟨5, _⟩, _ => (dat3 V c).before_in_eq_fetched _ rfl (fun _ => rfl) (fun _ _ _ => rfl) (fun _ => rfl)
  | ⟨6, _⟩, h => absurd rfl h

theorem body_obligation3 (c : Dev nD) : BodyObligation (dat3 (F := F) V c) (defs₀ (F := F)) Variants.none () Set.univ := fun t => by
  show _ ⊢ wp _ _ _ (bodyAt3 t) _
  unfold bodyAt3
  rw [show cc3_kernel (F := F) = cc1_kernel from rfl, bigSep_W3, bigSep_W3]
  simp only [before3 V c 0 (by decide), before3 V c 1 (by decide), before3 V c 2 (by decide), before3 V c 3 (by decide), before3 V c 4 (by decide), before3 V c 5 (by decide)]
  dsimp only [dat3, Dat.fetched, Dat.blockOf]
  rw [show out3_6 (F := F) = out1_6 from rfl]
  iintro ⟨HΦ, Ho, ⟨%d0, H0⟩, ⟨%d1, H1⟩, ⟨%d2, H2⟩, ⟨%d3, H3⟩, ⟨%d4, H4⟩, ⟨%d5, H5⟩, %d6, H6⟩
  iapply (sound_kernel1 c (x0 := iblk3 V c 0 t) (x1 := iblk3 V c 1 t) (x2 := iblk3 V c 2 t) (x3 := iblk3 V c 3 t) (x4 := iblk3 V c 4 t) (x5 := iblk3 V c 5 t) _ _)
  iframe HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

end Region3

end Cert.Kernel.GenH
-- ==== Proof.K.RegA4.lean ====
import proofs.«408255_j5076651344425_4_alg».proof.Proof.Gen.Kernel.Launch
import proofs.«408255_j5076651344425_4_alg».proof.Proof.Gen.Kernel.Skeleton
import proofs.«408255_j5076651344425_4_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring

noncomputable section

namespace Cert.Kernel.GenH

open Cert.Kernel.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

section
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S8192x64 := Rect.unit (s := S8192x64) ![0, 0] S8192x64.size inb_S8192x64_S8192x64_0_0
abbrev r4_1 : Rect S64x1 := Rect.unit (s := S64x1) ![0, 0] S64x1.size inb_S64x1_S64x1_0_0
abbrev r4_2 : Rect S1x64 := Rect.unit (s := S1x64) ![0, 0] S1x64.size inb_S1x64_S1x64_0_0
abbrev r4_3 : Rect S8192x1 := Rect.unit (s := S8192x1) ![0, 0] S8192x1.size inb_S8192x1_S8192x1_0_0

def out4_3 (x0 : Vec F S8192x64 .f32) (x1 : Vec F S64x1 .f32) (x2 : Vec F S1x64 .f32) : Vec F S8192x1 .f32 :=
  View.canon [⟨r4_3, k4_pay1 (View.ld x0 r4_0) (View.ld x2 r4_2) (View.ld x1 r4_1)⟩]

-- The written rectangle is the whole shape, so the output reads as the payload.
theorem sound_kernel4 (c : Dev nD) {i arg0 harg0 arg1 harg1 arg2 harg2 arg3 harg3 x0 x1 x2} (R S : sProp 𝕄) :
    iprop(R ∗ S ∗ owns c.tc arg0 fullShare x0 ∗ owns c.tc arg1 fullShare x1 ∗ owns c.tc arg2 fullShare x2 ∗ ∃ d, owns c.tc arg3 fullShare d)
      ⊢ wp frame (wpE (defs₀ (F := F)) Variants.none c none) Set.univ (cc4_kernel i arg0 harg0 arg1 harg1 arg2 harg2 arg3 harg3) fun _ =>
        iprop(R ∗ S ∗ owns c.tc arg0 fullShare x0 ∗ owns c.tc arg1 fullShare x1 ∗ owns c.tc arg2 fullShare x2 ∗ owns c.tc arg3 fullShare (out4_3 x0 x1 x2)) := by
  simp only [cc4_kernel_eq_skeleton]; unfold cc4_kernel_skel
  rw [owns_eq_rep _ arg0, owns_eq_rep _ arg1, owns_eq_rep _ arg2]
  unfold owns
  iintro ⟨HR, HS, H0, H1, H2, %d3, %f3, -, H3⟩
  sl_exec
  sl_step
  iframe HR HS H0 H1 H2
  iexists _; isplitr
  swap; · iexact H3
  ipureintro
  simp only [View.readAt_rep]
  exact View.read_writes_eq_canon _ _ _ (View.cover_of_tiled _ S8192x1.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = out4_3 (iblk4 V c 0 t) (iblk4 V c 1 t) (iblk4 V c 2 t) := by
  dsimp only [dat4]

theorem before4 (c : Dev nD) : ∀ w : Fin cfg4.W, w ≠ 3 → ∀ t d, (dat4 V c).before w t d = (dat4 V c).fetched w t d
  | ⟨0, _⟩, _ | ⟨1, _⟩, _ | ⟨2, _⟩, _ => (dat4 V c).before_in_eq_fetched _ rfl (fun _ => rfl) (fun _ _ _ => rfl) (fun _ => rfl)
  | ⟨3, _⟩, h => absurd rfl h

theorem body_obligation4 (c : Dev nD) : BodyObligation (dat4 (F := F) V c) (defs₀ (F := F)) Variants.none () Set.univ := fun t => by
  rw [bigSep_W4, bigSep_W4]
  simp only [before4 V c 0 (by decide), before4 V c 1 (by decide), before4 V c 2 (by decide)]
  dsimp only [dat4, Dat.fetched, Dat.blockOf]
  show _ ⊢ wp _ _ _ (bodyAt4 t) _
  iintro ⟨HΦ, Ho, ⟨%d0, H0⟩, ⟨%d1, H1⟩, ⟨%d2, H2⟩, %d3, H3⟩
  iapply (sound_kernel4 c (x0 := iblk4 V c 0 t) (x1 := iblk4 V c 1 t) (x2 := iblk4 V c 2 t) _ _)
  iframe HΦ
  isplitl [Ho]; · iexact Ho
  isplitl [H0]; · iexact H0
  isplitl [H1]; · iexact H1
  isplitl [H2]; · iexact H2
  iexists _; iexact H3

end

end Cert.Kernel.GenH
-- ==== Proof.K.RegA5.lean ====
import proofs.«408255_j5076651344425_4_alg».proof.Proof.Gen.Kernel.Launch
import proofs.«408255_j5076651344425_4_alg».proof.Proof.Gen.Kernel.Skeleton
import proofs.«408255_j5076651344425_4_alg».proof.Proof.Gen.Kernel.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.GenH

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S8192x1 := Rect.unit (s := S8192x1) ![0, 0] S8192x1.size inb_S8192x1_S8192x1_0_0
abbrev r5_1 : Rect S8192x8 := Rect.unit (s := S8192x8) ![0, 0] S8192x8.size inb_S8192x8_S8192x8_0_0
abbrev r5_2 : Rect S8x1 := Rect.unit (s := S8x1) ![0, 0] S8x1.size inb_S8x1_S8x1_0_0
abbrev r5_3 : Rect S1x1 := Rect.unit (s := S1x1) ![0, 0] S1x1.size inb_S1x1_S1x1_0_0
abbrev r5_4 : Rect S1x1 := Rect.unit (s := S1x1) ![0, 0] S1x1.size inb_S1x1_S1x1_0_0
abbrev r5_5 : Rect S1x1 := Rect.unit (s := S1x1) ![0, 0] S1x1.size inb_S1x1_S1x1_0_0
abbrev r5_6 : Rect S8192x1 := Rect.unit (s := S8192x1) ![0, 0] S8192x1.size inb_S8192x1_S8192x1_0_0

def out5_6 (x0 : Vec F S8192x1 .f32) (x1 : Vec F S8192x8 .f32) (x2 : Vec F S8x1 .f32) (x3 : Vec F S1x1 .f32) (x4 : Vec F S1x1 .f32) (x5 : Vec F S1x1 .f32) : Vec F S8192x1 .f32 :=
  View.canon [⟨r5_6, k5_pay1 (View.ld x0 r5_0) (View.ld x1 r5_1) (View.ld x2 r5_2) (View.ld x3 r5_3) (View.ld x4 r5_4) (View.ld x5 r5_5)⟩]

theorem sound_kernel5 (c : Dev nD) {i arg0 harg0 arg1 harg1 arg2 harg2 arg3 harg3 arg4 harg4 arg5 harg5 arg6 harg6 x0 x1 x2 x3 x4 x5} (R S : sProp 𝕄) :
    iprop(R ∗ S ∗ owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ ∃ d, owns c.tc arg6 fullShare d)
      ⊢ wp frame (wpE (defs₀ (F := F)) Variants.none c none) Set.univ (cc5_kernel i arg0 harg0 arg1 harg1 arg2 harg2 arg3 harg3 arg4 harg4 arg5 harg5 arg6 harg6) fun _ =>
        iprop(R ∗ S ∗ owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare (out5_6 x0 x1 x2 x3 x4 x5)) := by
  simp only [cc5_kernel_eq_skeleton]; unfold cc5_kernel_skel
  rw [owns_eq_rep _ arg0, owns_eq_rep _ arg1, owns_eq_rep _ arg2, owns_eq_rep _ arg3, owns_eq_rep _ arg4, owns_eq_rep _ arg5]
  unfold owns
  iintro ⟨HR, HS, H0, H1, H2, H3, H4, H5, %d6, %f6, -, H6⟩
  sl_exec
  sl_step
  iframe HR HS H0 H1 H2 H3 H4 H5
  iexists _; isplitr
  swap; · iexact H6
  ipureintro
  simp only [View.readAt_rep]
  exact View.read_writes_eq_canon _ _ _ (View.cover_of_tiled _ S8192x1.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5 (c : Dev nD) : ∀ w : Fin cfg5.W, w ≠ 6 → ∀ t d, (dat5 V c).before w t d = (dat5 V c).fetched w t d
  | ⟨0, _⟩, _ | ⟨1, _⟩, _ | ⟨2, _⟩, _ | ⟨3, _⟩, _ | ⟨4, _⟩, _ | ⟨5, _⟩, _ => (dat5 V c).before_in_eq_fetched _ rfl (fun _ => rfl) (fun _ _ _ => rfl) (fun _ => rfl)
  | ⟨6, _⟩, h => absurd rfl h

theorem body_obligation5 (c : Dev nD) : BodyObligation (dat5 (F := F) V c) (defs₀ (F := F)) Variants.none () Set.univ := fun t => by
  rw [bigSep_W5, bigSep_W5]
  simp only [before5 V c 0 (by decide), before5 V c 1 (by decide), before5 V c 2 (by decide), before5 V c 3 (by decide), before5 V c 4 (by decide), before5 V c 5 (by decide)]
  dsimp only [dat5, Dat.fetched, Dat.blockOf]
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩, %d6, H6⟩
  iapply (sound_kernel5 c (x0 := iblk5 V c 0 t) (x1 := iblk5 V c 1 t) (x2 := iblk5 V c 2 t) (x3 := iblk5 V c 3 t) (x4 := iblk5 V c 4 t) (x5 := iblk5 V c 5 t) _ _)
  iframe HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

end Region5

end Cert.Kernel.GenH
-- ==== Proof.K.RegR6Runs.lean ====
import proofs.«408255_j5076651344425_4_alg».proof.Proof.Gen.Kernel.Launch
import proofs.«408255_j5076651344425_4_alg».proof.Proof.Gen.Kernel.Skeleton
import proofs.«408255_j5076651344425_4_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

def iblk6 (V : (c : Dev nD) → (b : Ref sig .tc) → Buf (Elt F) ((c : Thread nD τ).loc b)) (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1
theorem hcond6_1 : ∀ t : Fin cfg6.N, cond6_1 (grid6.coords t) ↔ t.val = 7 :=
  (by decide +kernel : ∀ t : Fin grid6.N, cond6_1 (grid6.coords t) ↔ t.val = 7)

theorem liveAt6 : ∀ (w : Fin cfg6.W) (t : Fin cfg6.N), w.val < 3 → cfg6.idle w (grid6.coords t) = false := by decide +kernel
theorem outAt6 : ∀ t : Fin cfg6.N, (t.val = 7 → cfg6.idle 3 (grid6.coords t) = false)
    ∧ (¬t.val = 7 → cfg6.idle 3 (grid6.coords t) = true ∧ (cfg6.win 3).flush t = false) := by decide +kernel

abbrev scM6_0 : Memref sig .tc .vmem S64x1 .f32 := Memref.whole cc6_scratch0
abbrev scM6_1 : Memref sig .tc .vmem S64x1 .f32 := Memref.whole cc6_scratch1

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

theorem hz1 : (![0] : Fin 1 → Nat) = fun _ => 0 := funext fun a => by fin_cases a; rfl
theorem hz2 : (![0, 0] : Fin 2 → Nat) = fun _ => 0 := funext fun a => by fin_cases a <;> rfl

-- The running sums and counts one run of the body leaves over `s`: the first point starts from the zero blocks.
def acc6 (i : grid6.Coords) (x0 : Vec F S8192x1 .f32) (x1 : Vec F S8192 .i32) (s : Vec F S64x1 .f32) : Vec F S64x1 .f32 :=
  k6_pay4 x1 (if cond6_0 i then k6_pay1 else s) x0
def cnt6 (i : grid6.Coords) (x1 : Vec F S8192 .i32) (s : Vec F S64x1 .f32) : Vec F S64x1 .f32 :=
  k6_pay5 x1 (if cond6_0 i then k6_pay2 else s)

set_option maxHeartbeats 1000000 in
theorem kernelRun6 (c : Dev nD) (i : grid6.Coords) (arg1 : Memref sig .tc .vmem S8192x1 .f32) (harg1 : arg1.IsWhole) (arg2 : Memref sig .tc .vmem S8192 .i32) (harg2 : arg2.IsWhole) (arg3 : Memref sig .tc .vmem S1x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole)
    (h01 : ¬(cond6_0 i ∧ cond6_1 i))
    (x0 : Vec F S8192x1 .f32) (x1 : Vec F S8192 .i32) (x2 : Vec F S1x1 .f32) (x3 s0 s1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (if cond6_1 i then k6_pay6 (acc6 i x0 x1 s0) (cnt6 i x1 s1) x2 else x3)
            ∗ owns (c : Thread nD τ) arg5 fullShare (acc6 i x0 x1 s0) ∗ owns (c : Thread nD τ) arg6 fullShare (cnt6 i x1 s1)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel acc6 cnt6 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  by_cases hc0 : cond6_0 i <;> by_cases hc1 : cond6_1 i
  · exact absurd ⟨hc0, hc1⟩ h01
  all_goals
    first | rw [if_pos hc1] | rw [if_neg hc1]
    first | rw [if_pos hc0, if_pos hc0] | rw [if_neg hc0, if_neg hc0]
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      first | exact harg4.read_unread _ | (rw [View.read_writes_eq_canon _ _ _ (View.cover_of_tiledL _ S64x1.size (by sl_kernel_rfl))]; sl_unfold_run_names; simp only [View.readAt_eq_ld, harg1.read_unread, harg2.read_unread, harg3.read_unread, harg5.read_unread, harg6.read_unread,
      View.ld_unit_zero (S := S8192x1) hz2, View.ld_unit_zero (S := S8192) hz1, View.ld_unit_zero (S := S1x1) hz2, View.ld_unit_zero (S := S64x1) hz2,
      View.readCov_unit_zero (S := S64x1) _ hz2, View.canon_cons_unit_zero (S := S64x1) hz2])
    isplitl [H4]
    · iexists _; isplitr
      swap; · iexact H4
      ipureintro
      rw [View.read_writes_eq_canon _ _ _ (View.cover_of_tiledL _ S64x1.size (by sl_kernel_rfl))]; sl_unfold_run_names
      simp only [View.readAt_eq_ld, harg1.read_unread, harg2.read_unread, harg3.read_unread, harg5.read_unread, harg6.read_unread,
      View.ld_unit_zero (S := S8192x1) hz2, View.ld_unit_zero (S := S8192) hz1, View.ld_unit_zero (S := S1x1) hz2, View.ld_unit_zero (S := S64x1) hz2,
      View.readCov_unit_zero (S := S64x1) _ hz2, View.canon_cons_unit_zero (S := S64x1) hz2]
    iexists _; isplitr
    swap; · iexact H5
    ipureintro
    rw [View.read_writes_eq_canon _ _ _ (View.cover_of_tiledL _ S64x1.size (by sl_kernel_rfl))]; sl_unfold_run_names
    simp only [View.readAt_eq_ld, harg1.read_unread, harg2.read_unread, harg3.read_unread, harg5.read_unread, harg6.read_unread,
      View.ld_unit_zero (S := S8192x1) hz2, View.ld_unit_zero (S := S8192) hz1, View.ld_unit_zero (S := S1x1) hz2, View.ld_unit_zero (S := S64x1) hz2,
      View.readCov_unit_zero (S := S64x1) _ hz2, View.canon_cons_unit_zero (S := S64x1) hz2]

end Cert.Kernel.GenH

end
-- ==== Proof.K.RegR6.lean ====
import proofs.«408255_j5076651344425_4_alg».proof.Proof.K.RegR6Runs

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Frame
variable (V : (c : Dev nD) → (b : Ref sig .tc) → Buf (Elt F) ((c : Thread nD τ).loc b))

-- The output block and the two accumulators after the body at point `t`, over the accumulators `s` before it.
def step6 (c : Dev nD) (t : Fin cfg6.N) (s : Vec F S64x1 .f32 × Vec F S64x1 .f32) : Vec F S64x1 .f32 × Vec F S64x1 .f32 × Vec F S64x1 .f32 :=
  let a := acc6 (grid6.coords t) (iblk6 V c 0 t) (iblk6 V c 1 t) s.1
  let n := cnt6 (grid6.coords t) (iblk6 V c 1 t) s.2
  (k6_pay6 a n (iblk6 V c 2 t), a, n)

def outsAt6 (c : Dev nD) : (n : ℕ) → n < cfg6.N → Vec F S64x1 .f32 × Vec F S64x1 .f32 × Vec F S64x1 .f32
  | 0, hn => step6 V c ⟨0, hn⟩ (k6_pay1, k6_pay2)
  | n + 1, hn => step6 V c ⟨n + 1, hn⟩ (outsAt6 c n (Nat.lt_of_succ_lt hn)).2

-- At the first point the accumulators before it do not matter; afterwards they are what the point before left.
theorem outsAt6_eq (c : Dev nD) (t : Fin cfg6.N) (s : Vec F S64x1 .f32 × Vec F S64x1 .f32)
    (hs : ∀ h : t.val ≠ 0, s = (outsAt6 V c (t.val - 1) (Nat.lt_of_le_of_lt (Nat.sub_le _ _) t.isLt)).2) :
    outsAt6 V c t.val t.isLt = step6 V c t s := by
  obtain ⟨n, hn⟩ := t
  cases n with
  | zero =>
    show step6 V c ⟨0, hn⟩ (k6_pay1, k6_pay2) = step6 V c ⟨0, hn⟩ s
    unfold step6 acc6 cnt6; simp only [if_pos ((hcond6_0 ⟨0, hn⟩).mpr rfl)]
  | succ n => rw [hs (Nat.succ_ne_zero n)]; rfl

def PhiS6 (c : Dev nD) (n : ℕ) (hn : n ≤ cfg6.N) : sProp 𝕄 :=
  iprop(∃ s0, ∃ s1, ⌜∀ h : n ≠ 0, (s0, s1) = (outsAt6 V c (n - 1) (by omega)).2⌝
    ∗ owns (c : Thread nD τ) scM6_0 fullShare s0 ∗ owns (c : Thread nD τ) scM6_1 fullShare s1 ∗ rest6 (F := F) c ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem before6 (c : Dev nD) (t : Fin cfg6.N) : (∀ d, (dat6 V c).before 0 t d = iblk6 V c 0 t)
    ∧ (∀ d, (dat6 V c).before 1 t d = iblk6 V c 1 t) ∧ (∀ d, (dat6 V c).before 2 t d = iblk6 V c 2 t) := by
  refine ⟨fun d => ?_, fun d => ?_, fun d => ?_⟩ <;>
  exact ((dat6 V c).before_in_eq_fetched _ rfl (fun _ => rfl) (fun _ _ _ => rfl) (fun t => by dsimp only [dat6]; unfold Dat.blockOf iblk6; try rfl) t d).trans
    (by unfold Dat.fetched Dat.blockOf iblk6; dsimp only [dat6]; try rfl)

theorem sound_body6 (c : Dev nD) (t : Fin cfg6.N) :
    iprop((dat6 V c).Φ t.castSucc ∗ (dat6 V c).owesAt () t.castSucc
      ∗ (∃ d, owns (c : Thread nD τ) (win6_0.stage (cfg6.slots t 0)) fullShare ((dat6 V c).before 0 t d))
      ∗ (∃ d, owns (c : Thread nD τ) (win6_1.stage (cfg6.slots t 1)) fullShare ((dat6 V c).before 1 t d))
      ∗ (∃ d, owns (c : Thread nD τ) (win6_2.stage (cfg6.slots t 2)) fullShare ((dat6 V c).before 2 t d))
      ∗ (∃ d, owns (c : Thread nD τ) (win6_3.stage (cfg6.slots t 3)) fullShare ((dat6 V c).before 3 t d)))
      ⊢ wp frame (wpE (defs₀ (F := F)) Variants.none c none) Set.univ (bodyAt6 t) (fun _ =>
        iprop((dat6 V c).Φ t.succ ∗ (dat6 V c).owesAt () t.succ
          ∗ (dat6 V c).leavesExact 0 t ∗ (dat6 V c).leavesExact 1 t ∗ (dat6 V c).leavesExact 2 t ∗ (dat6 V c).leavesExact 3 t)) := by
  simp only [(before6 V c t).1, (before6 V c t).2.1, (before6 V c t).2.2]
  rw [show (dat6 V c).owesAt () t.succ = (dat6 V c).owesAt () t.castSucc from rfl,
    show (dat6 V c).Φ t.succ = PhiS6 V c (t.val + 1) t.isLt from rfl,
    show (dat6 V c).Φ t.castSucc = PhiS6 V c t.val (Nat.le_of_lt t.isLt) from rfl,
    show (dat6 V c).leavesExact 0 t = owns (c : Thread nD τ) (win6_0.stage (cfg6.slots t 0)) fullShare (iblk6 V c 0 t) from by
      unfold Dat.leavesExact; rw [liveAt6 0 t (by decide)]; rfl,
    show (dat6 V c).leavesExact 1 t = owns (c : Thread nD τ) (win6_1.stage (cfg6.slots t 1)) fullShare (iblk6 V c 1 t) from by
      unfold Dat.leavesExact; rw [liveAt6 1 t (by decide)]; rfl,
    show (dat6 V c).leavesExact 2 t = owns (c : Thread nD τ) (win6_2.stage (cfg6.slots t 2)) fullShare (iblk6 V c 2 t) from by
      unfold Dat.leavesExact; rw [liveAt6 2 t (by decide)]; rfl]
  unfold PhiS6
  iintro ⟨⟨%s0, %s1, %hs, HS0, HS1, Hr⟩, Ho, ⟨%d0, H0⟩, ⟨%d1, H1⟩, ⟨%d2, H2⟩, ⟨%d3, H3⟩⟩
  have e := outsAt6_eq V c t (s0, s1) hs
  iapply (kernelRun6 c (grid6.coords t) _ _ _ _ _ _ _ _ _ _ _ _ (fun h => by have := (hcond6_0 t).mp h.1; have := (hcond6_1 t).mp h.2; omega) (iblk6 V c 0 t) (iblk6 V c 1 t) (iblk6 V c 2 t) _ s0 s1 Set.univ _)
  iframe H0 H1 H2 H3 HS0 HS1
  iintro ⟨H0, H1, H2, H3, HS0, HS1⟩
  isplitl [HS0 HS1 Hr]
  · iexists _, _; isplitr
    swap; · iframe HS0 HS1 Hr
    ipureintro; exact fun _ => (congrArg (·.2) e).symm
  iframe Ho H0 H1 H2
  by_cases h1 : t.val = 7
  · rw [if_pos ((hcond6_1 t).mpr h1), show (dat6 V c).leavesExact 3 t = owns (c : Thread nD τ) (win6_3.stage (cfg6.slots t 3)) fullShare (step6 V c t (s0, s1)).1 from by
      unfold Dat.leavesExact; rw [(outAt6 t).1 h1, ← e]; rfl]
    iexact H3
  · rw [if_neg (fun h => h1 ((hcond6_1 t).mp h)), Dat.leavesExact_idle (dat6 V c) 3 t ((outAt6 t).2 h1).1 ((outAt6 t).2 h1).2]
    iexists _; iexact H3

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [PhiA6_eq, show (dat6 V c).Φ 0 = PhiS6 V c 0 (Nat.zero_le _) from rfl]; unfold PhiS6
  iintro ⟨⟨⟨⟨%s0, H0⟩, ⟨%s1, H1⟩⟩, Hr⟩, Hg⟩
  iexists s0, s1; isplitr; · ipureintro; exact fun h => absurd rfl h
  iframe H0 H1 Hr Hg

theorem hout6 (c : Dev nD) : (dat6 V c).Φ (Fin.last cfg6.N) ⊢ Pipeline.ΦA spec6 c := by
  rw [PhiA6_eq, show (dat6 V c).Φ (Fin.last cfg6.N) = PhiS6 V c cfg6.N (Nat.le_refl _) from rfl]; unfold PhiS6
  iintro ⟨%s0, %s1, -, H0, H1, Hr, Hg⟩
  isplitl [H0 H1 Hr]
  · isplitl [H0 H1]
    · isplitl [H0] <;> iexists _
      · iexact H0
      · iexact H1
    iexact Hr
  iexact Hg

end Frame

end Cert.Kernel.GenH

end
-- ==== Proof.K.Chain.lean ====
import proofs.«408255_j5076651344425_4_alg».proof.Proof.K.RegA0
import proofs.«408255_j5076651344425_4_alg».proof.Proof.K.RegA1
import proofs.«408255_j5076651344425_4_alg».proof.Proof.K.RegA2
import proofs.«408255_j5076651344425_4_alg».proof.Proof.K.RegA3
import proofs.«408255_j5076651344425_4_alg».proof.Proof.K.RegA4
import proofs.«408255_j5076651344425_4_alg».proof.Proof.K.RegA5
import proofs.«408255_j5076651344425_4_alg».proof.Proof.K.RegR6
import proofs.«408255_j5076651344425_4_alg».proof.Proof.Gen.Kernel.Regions

noncomputable section

namespace Cert.Kernel.GenH

open Idealize.ShloMosaic Idealize.ShloMosaic.TcCoe
open Idealize.SL Idealize.SL.Sem
open Cert.Kernel Cert.Kernel.Gen
open Idealize.ShloMosaic.Pipeline (Dat)

variable {F : FTy → Type} [FloatOps F]
variable (m : (ℓ : Loc nD τ sig) → Buf (Elt F) ℓ)

abbrev atTc (Y : Dev nD → Valuation τ sig (Elt F)) : (c : Dev nD) → (b : Ref sig .tc) → Buf (Elt F) ((c : Thread nD τ).loc b) :=
  fun c b => Y c b

def Y0 (c : Dev nD) : Valuation τ sig (Elt F) := fun b => m (c, b)

def o1 (c : Dev nD) : Buf (Elt F) ((c : Thread nD τ).loc main_v0) := (dat0 (atTc (Y0 m)) c).arrAt 2 cfg0.N
def Y1 (c : Dev nD) : Valuation τ sig (Elt F) := Function.update (Y0 m c) main_v0 (o1 m c)
def Y2 (c : Dev nD) : Valuation τ sig (Elt F) := StableHlo.after hostOps1 (Y1 m c)

def o3 (c : Dev nD) : Buf (Elt F) ((c : Thread nD τ).loc main_v10) := (dat1 (atTc (Y2 m)) c).arrAt 6 cfg1.N
def Y3 (c : Dev nD) : Valuation τ sig (Elt F) := Function.update (Y2 m c) main_v10 (o3 m c)
def Y4 (c : Dev nD) : Valuation τ sig (Elt F) := StableHlo.after hostOps2 (Y3 m c)

def o5 (c : Dev nD) : Buf (Elt F) ((c : Thread nD τ).loc main_v16) := (dat2 (atTc (Y4 m)) c).arrAt 3 cfg2.N
def Y5 (c : Dev nD) : Valuation τ sig (Elt F) := Function.update (Y4 m c) main_v16 (o5 m c)
def Y6 (c : Dev nD) : Valuation τ sig (Elt F) := StableHlo.after hostOps3 (Y5 m c)

def o7 (c : Dev nD) : Buf (Elt F) ((c : Thread nD τ).loc main_v26) := (dat3 (atTc (Y6 m)) c).arrAt 6 cfg3.N
def Y7 (c : Dev nD) : Valuation τ sig (Elt F) := Function.update (Y6 m c) main_v26 (o7 m c)
def Y8 (c : Dev nD) : Valuation τ sig (Elt F) := StableHlo.after hostOps4 (Y7 m c)

def o9 (c : Dev nD) : Buf (Elt F) ((c : Thread nD τ).loc main_v32) := (dat4 (atTc (Y8 m)) c).arrAt 3 cfg4.N
def Y9 (c : Dev nD) : Valuation τ sig (Elt F) := Function.update (Y8 m c) main_v32 (o9 m c)
def Y10 (c : Dev nD) : Valuation τ sig (Elt F) := StableHlo.after hostOps5 (Y9 m c)

def o11 (c : Dev nD) : Buf (Elt F) ((c : Thread nD τ).loc main_v42) := (dat5 (atTc (Y10 m)) c).arrAt 6 cfg5.N
def Y11 (c : Dev nD) : Valuation τ sig (Elt F) := Function.update (Y10 m c) main_v42 (o11 m c)
def Y12 (c : Dev nD) : Valuation τ sig (Elt F) := StableHlo.after hostOps6 (Y11 m c)

def o13 (c : Dev nD) : Buf (Elt F) ((c : Thread nD τ).loc main_v47) := (dat6 (atTc (Y12 m)) c).arrAt 3 cfg6.N
def Y13 (c : Dev nD) : Valuation τ sig (Elt F) := Function.update (Y12 m c) main_v47 (o13 m c)

theorem Y1_self (c : Dev nD) : Y1 m c main_v0 = o1 m c := Function.update_self ..
theorem Y1_of_ne (c : Dev nD) (b : Ref sig .tc) (h : b ≠ main_v0) : Y1 m c b = Y0 m c b :=
  Function.update_of_ne (StableHlo.devRef_ne_of_ne h) ..
theorem Y3_self (c : Dev nD) : Y3 m c main_v10 = o3 m c := Function.update_self ..
theorem Y3_of_ne (c : Dev nD) (b : Ref sig .tc) (h : b ≠ main_v10) : Y3 m c b = Y2 m c b :=
  Function.update_of_ne (StableHlo.devRef_ne_of_ne h) ..
theorem Y5_self (c : Dev nD) : Y5 m c main_v16 = o5 m c := Function.update_self ..
theorem Y5_of_ne (c : Dev nD) (b : Ref sig .tc) (h : b ≠ main_v16) : Y5 m c b = Y4 m c b :=
  Function.update_of_ne (StableHlo.devRef_ne_of_ne h) ..
theorem Y7_self (c : Dev nD) : Y7 m c main_v26 = o7 m c := Function.update_self ..
theorem Y7_of_ne (c : Dev nD) (b : Ref sig .tc) (h : b ≠ main_v26) : Y7 m c b = Y6 m c b :=
  Function.update_of_ne (StableHlo.devRef_ne_of_ne h) ..
theorem Y9_self (c : Dev nD) : Y9 m c main_v32 = o9 m c := Function.update_self ..
theorem Y9_of_ne (c : Dev nD) (b : Ref sig .tc) (h : b ≠ main_v32) : Y9 m c b = Y8 m c b :=
  Function.update_of_ne (StableHlo.devRef_ne_of_ne h) ..
theorem Y11_self (c : Dev nD) : Y11 m c main_v42 = o11 m c := Function.update_self ..
theorem Y11_of_ne (c : Dev nD) (b : Ref sig .tc) (h : b ≠ main_v42) : Y11 m c b = Y10 m c b :=
  Function.update_of_ne (StableHlo.devRef_ne_of_ne h) ..
theorem Y13_self (c : Dev nD) : Y13 m c main_v47 = o13 m c := Function.update_self ..

def outsH : Outs (F := F) := fun J r c => match J with
  | 1 => Y1 m c r | 3 => Y3 m c r | 5 => Y5 m c r | 7 => Y7 m c r | 9 => Y9 m c r | 11 => Y11 m c r | 13 => Y13 m c r
  | _ => Y0 m c r

/-- Updating at b by the value an update of an equal valuation has at b is that update. -/
theorem upd_eq {V Y : Valuation τ sig (Elt F)} (h : V = Y) (b : DevRef τ sig) (o : b.ty.Contents (Elt F)) :
    Function.update V b (Function.update Y b o b) = Function.update Y b o := by rw [h, Function.update_self]

theorem V1_eq (c : Dev nD) : V1 m (outsH m) c = Y1 m c := upd_eq rfl ..
theorem V3_eq (c : Dev nD) : V3 m (outsH m) c = Y3 m c := upd_eq (congrArg (StableHlo.after hostOps1) (V1_eq m c)) ..
theorem V5_eq (c : Dev nD) : V5 m (outsH m) c = Y5 m c := upd_eq (congrArg (StableHlo.after hostOps2) (V3_eq m c)) ..
theorem V7_eq (c : Dev nD) : V7 m (outsH m) c = Y7 m c := upd_eq (congrArg (StableHlo.after hostOps3) (V5_eq m c)) ..
theorem V9_eq (c : Dev nD) : V9 m (outsH m) c = Y9 m c := upd_eq (congrArg (StableHlo.after hostOps4) (V7_eq m c)) ..
theorem V11_eq (c : Dev nD) : V11 m (outsH m) c = Y11 m c := upd_eq (congrArg (StableHlo.after hostOps5) (V9_eq m c)) ..
theorem V13_eq (c : Dev nD) : V13 m (outsH m) c = Y13 m c := upd_eq (congrArg (StableHlo.after hostOps6) (V11_eq m c)) ..

end Cert.Kernel.GenH

end
-- ==== Proof.LibRegionSeg.lean ====
import Idealize.ShloMosaic.Lib.Pipeline.FrameBody
import Idealize.ShloMosaic.Lib.Pipeline.RegionsLoop
import Idealize.ShloMosaic.Lib.Pipeline.FrameSuffix

noncomputable section

namespace Idealize.ShloMosaic.Pipeline

open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U]
variable {Λ₀ : SL.Sem.Labels} {P : Type} [Fintype P]

local notation "𝕄" => MT nD τ sig Unit Val ℕ U ℕ

variable {cfgs : P → Cfg sig Λ₀} {pdats : (p : P) → (c : Dev nD) → Dat τ Val Unit ℕ U ℕ (cfgs p) c}
  {defs₀ : Defs nD τ sig Val Λ₀} {𝒱₀ : Variants} {L : GSem nD τ sig → Finset Unit} {lv : GSem nD τ sig → Unit → ℕ}

set_option backward.isDefEq.respectTransparency.types false in
def RegionSeg.ofUpdate {p : P} (kit : LaunchFacts (nD := nD) (τ := τ) cfgs p) (o : Fin (cfgs p).W)
    (hio : ∀ w, w ≠ o → ((cfgs p).spec w).isOut = false) (V V' : Dev nD → Valuation τ sig Val)
    (hV' : ∀ c, V' c = Function.update (V c) (arrRef (cfgs p).spec o) ((pdats p c).arrAt o (cfgs p).N))
    (hbody : ∀ c, BodyObligationLoose (pdats p c) defs₀ 𝒱₀ () Set.univ)
    (hq : ∀ c w, (pdats p c).q w = fullShare) (howed : ∀ c t, (pdats p c).owed t = 0)
    (hrec : ∀ c x, x ∈ (pdats p c).recorded 0) (hA : ∀ c w, (pdats p c).A w = V c (arrRef (cfgs p).spec w))
    (hΦ0 : ∀ c, (ΦA (cfgs p).spec c : sProp 𝕄) ⊢ (pdats p c).Φ 0)
    (hΦN : ∀ c, (pdats p c).Φ (Fin.last (cfgs p).N) ⊢ (ΦA (cfgs p).spec c : sProp 𝕄)) :
    RegionSeg (fun q => (cfgs q).toPCfg) (fun q => (cfgs q).toPCfg_adm) pdats () defs₀ 𝒱₀ L lv p where
  win := kit.win.to₀
  block_pos := kit.block_pos
  stage_whole := kit.stage_whole
  K := PEmpty
  osem k := k.elim
  ho := OwnSemFacts.none _
  hbody := hbody
  hwaits := hwaits_of_owed_zero _ _ _ _ L lv p howed
  pre c := iprop(StableHlo.held (c : Thread nD τ) (ucRefs τ sig) (V c) ∗ (∃ r, prngReg c r) ∗ ∃ W, owes (c : Thread nD τ) (0 : CellTallies nD τ sig Unit) W)
  post c := iprop(StableHlo.held (c : Thread nD τ) (ucRefs τ sig) (V' c) ∗ (∃ r, prngReg c r) ∗ ∃ W, owes (c : Thread nD τ) (0 : CellTallies nD τ sig Unit) W)
  X c := iprop(∃ r, prngReg c r)
  Y c := iprop(∃ r, prngReg c r)
  Z c := unscopedRest (Ix := Unit) (Name := ℕ) (U := U) (Lvl := ℕ) (cfgs p).spec c fun b => V c b
  hentry c := by
    rw [ownSems0_none]
    have hsplit := arrays_of_unscopedBufs (p := p) (fun q => (cfgs q).toPCfg) (fun q => (cfgs q).toPCfg_adm) pdats kit.win kit.arr_whole c
      ((pdats p c).share_full (hq c)) (fun b => V c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin; rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hΦ0 c); unfold ΦA
    iintro ⟨Hp, -, Hr⟩
    isplitl [Hr]; · iexact Hr
    iexact Hp
  hout c := by
    rw [ownSems0_none]; refine (hΦN c).trans ?_; unfold ΦA
    iintro ⟨Hr, Hp⟩
    isplitl [Hp]; · iexact Hp
    isplitr; · iempintro
    iexact Hr
  hexit c := by
    have hjoin := unscopedBufs_of_arrays (p := p) (fun q => (cfgs q).toPCfg) (fun q => (cfgs q).toPCfg_adm) (Ix := Unit) (Name := ℕ) (U := U) (Lvl := ℕ)
      kit.win kit.arr_whole c pdats ((pdats p c).share_full (hq c))
      (fun b => V c b) (fun b => V' c b) ((pdats p c).arrAt · (cfgs p).N)
      (fun w => show (pdats p c).arrAt w (cfgs p).N = V' c (arrRef (cfgs p).spec w) from by
        rw [hV' c]
        by_cases h : w = o
        · subst h; rw [Function.update_self]
        · rw [Function.update_of_ne (StableHlo.devRef_ne_of_ne (kit.win.arr_inj.ne h))]
          exact ((pdats p c).arrAt_in w (hio w h) _).trans (hA c w))
      (fun b hb => by
        rw [hV' c]
        exact Function.update_of_ne (StableHlo.devRef_ne_of_ne fun e => hb (Finset.mem_image.mpr ⟨o, Finset.mem_univ _, e.symm⟩)) _ _)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin; rw [howed c]
    icases HO with ⟨%W, -, HO⟩; iexists W; iexact HO

end Idealize.ShloMosaic.Pipeline

end
-- ==== Proof.K.Regs.lean ====
import proofs.«408255_j5076651344425_4_alg».proof.Proof.K.Chain
import proofs.«408255_j5076651344425_4_alg».proof.Proof.LibRegionSeg
import Idealize.ShloMosaic.Lib.Ring
import Idealize.ShloMosaic.Lib.Tactic

set_option maxRecDepth 16384

noncomputable section

namespace Cert.Kernel.GenH

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0

def pdats : (p : Fin 7) → (c : Dev nD) → Dat τ (Elt F) Unit ℕ (UR sig nD τ) ℕ (cfgs p) c
  | ⟨0, _⟩ => dat0 (atTc (Y0 m))
  | ⟨1, _⟩ => dat1 (atTc (Y2 m))
  | ⟨2, _⟩ => dat2 (atTc (Y4 m))
  | ⟨3, _⟩ => dat3 (atTc (Y6 m))
  | ⟨4, _⟩ => dat4 (atTc (Y8 m))
  | ⟨5, _⟩ => dat5 (atTc (Y10 m))
  | ⟨6, _⟩ => dat6 (atTc (Y12 m))

abbrev R (c : Dev nD) : sProp 𝕄 := iprop((∃ r, prngReg c r) ∗ ∃ W, owes (c : Thread nD τ) (0 : CellTallies nD τ sig Unit) W)
abbrev E : Fin 8 → Dev nD → sProp 𝕄 := fun _ c => R c

def reg0 : Pipeline.RegionSeg (pcfgs (F := F)) adm (pdats m) () defs₀ 𝒱₀ L lv 0 :=
  .ofUpdate launch0 2 (by decide) (Y0 m) (Y1 m) (fun _ => rfl) (fun c => (body_obligation0 _ c).loose)
    (fun _ _ => rfl) (fun _ _ => rfl) (fun _ _ => trivial) (A_eq0 _) (fun _ => .rfl) fun _ => .rfl
def reg1 : Pipeline.RegionSeg (pcfgs (F := F)) adm (pdats m) () defs₀ 𝒱₀ L lv 1 :=
  .ofUpdate launch1 6 (by decide) (Y2 m) (Y3 m) (fun _ => rfl) (fun c => (body_obligation1 _ c).loose)
    (fun _ _ => rfl) (fun _ _ => rfl) (fun _ _ => trivial) (A_eq1 _) (fun _ => .rfl) fun _ => .rfl
def reg2 : Pipeline.RegionSeg (pcfgs (F := F)) adm (pdats m) () defs₀ 𝒱₀ L lv 2 :=
  .ofUpdate launch2 3 (by decide) (Y4 m) (Y5 m) (fun _ => rfl) (fun c => (body_obligation2 _ c).loose)
    (fun _ _ => rfl) (fun _ _ => rfl) (fun _ _ => trivial) (A_eq2 _) (fun _ => .rfl) fun _ => .rfl
def reg3 : Pipeline.RegionSeg (pcfgs (F := F)) adm (pdats m) () defs₀ 𝒱₀ L lv 3 :=
  .ofUpdate launch3 6 (by decide) (Y6 m) (Y7 m) (fun _ => rfl) (fun c => (body_obligation3 _ c).loose)
    (fun _ _ => rfl) (fun _ _ => rfl) (fun _ _ => trivial) (A_eq3 _) (fun _ => .rfl) fun _ => .rfl
def reg4 : Pipeline.RegionSeg (pcfgs (F := F)) adm (pdats m) () defs₀ 𝒱₀ L lv 4 :=
  .ofUpdate launch4 3 (by decide) (Y8 m) (Y9 m) (fun _ => rfl) (fun c => (body_obligation4 _ c).loose)
    (fun _ _ => rfl) (fun _ _ => rfl) (fun _ _ => trivial) (A_eq4 _) (fun _ => .rfl) fun _ => .rfl
def reg5 : Pipeline.RegionSeg (pcfgs (F := F)) adm (pdats m) () defs₀ 𝒱₀ L lv 5 :=
  .ofUpdate launch5 6 (by decide) (Y10 m) (Y11 m) (fun _ => rfl) (fun c => (body_obligation5 _ c).loose)
    (fun _ _ => rfl) (fun _ _ => rfl) (fun _ _ => trivial) (A_eq5 _) (fun _ => .rfl) fun _ => .rfl
def reg6 : Pipeline.RegionSeg (pcfgs (F := F)) adm (pdats m) () defs₀ 𝒱₀ L lv 6 :=
  .ofUpdate launch6 3 (by decide) (Y12 m) (Y13 m) (fun _ => rfl) (fun c => (body_obligation6 _ c).loose)
    (fun _ _ => rfl) (fun _ _ => rfl) (fun _ _ => trivial) (A_eq6 _) (hin6 _) (hout6 _)

end Cert.Kernel.GenH

end
-- ==== Proof.K.Frame.lean ====
import proofs.«408255_j5076651344425_4_alg».proof.Proof.K.Regs

set_option maxRecDepth 16384

noncomputable section

namespace Cert.Kernel.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev T (c : Dev nD) (Y : Valuation τ sig (Elt F)) : sProp 𝕄 := iprop(StableHlo.held (c : Thread nD τ) (Pipeline.ucRefs τ sig) Y ∗ R c)

theorem toV {V Y : Valuation τ sig (Elt F)} (h : V = Y) (c : Dev nD) : T c Y ⊢ T c V := by rw [h]
theorem ofV (ops : List (HloOp τ sig (Elt F))) {V Y : Valuation τ sig (Elt F)} (h : V = Y) (c : Dev nD) :
    T c (StableHlo.after ops V) ⊢ T c (StableHlo.after ops Y) := by rw [h]

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = Y13 m c b) := by
  refine Pipeline.θ_run_regions_kit_dev (pcfgs (F := F)) adm (pdats m) () cellOf_inj emb₁ defs₀ 𝒱₀ L lv m ρ main
    (segs m (outsH m) 𝒱₀ L lv E () (pdats m) (reg0 m) (reg1 m) (reg2 m) (reg3 m) (reg4 m) (reg5 m) (reg6 m))
    (fun c Q => by rewrite [main_chain c, Seg.run_eq_chain]; exact .rfl)
    (fun c => by simp only [segs, Seg.pipes_host, Seg.pipes_region, Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · exact .rfl
      iempintro)
    (T₀ := fun c => T c (Y0 m c))
    (Tₙ := fun c => iprop(StableHlo.held (c : Thread nD τ) (Pipeline.ucRefs τ sig) (Y13 m c) ∗ ∃ r, prngReg c r))
    (hch := fun c => ⟨.rfl,
      toV (V1_eq m c) c, ofV _ (V1_eq m c) c,
      toV (V3_eq m c) c, ofV _ (V3_eq m c) c,
      toV (V5_eq m c) c, ofV _ (V5_eq m c) c,
      toV (V7_eq m c) c, ofV _ (V7_eq m c) c,
      toV (V9_eq m c) c, ofV _ (V9_eq m c) c,
      toV (V11_eq m c) c, ofV _ (V11_eq m c) c,
      ?_⟩)
    (hinit := ?_)
    (QY := fun c s => ∀ b ∈ Pipeline.ucRefs τ sig, s.mem (((c : Thread nD τ)).1, b) = Y13 m c b)
    (hfin := fun c s' => ?_) (hQ := fun s h c => h c)
  · show T c (Y13 m c) ⊢ _
    iintro ⟨Hh, Hp, HO⟩
    isplitl [Hh Hp]
    · isplitl [Hh] <;> iassumption
    iexact HO
  · refine Pipeline.initEach L lv fun c => ?_
    rw [show unscopedBufs c (fun b => m ((c : Thread nD τ).loc b)) = _ from Pipeline.unscopedBufs_held c (Y0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (Y13 m c) s')
    isplitl [Hh] <;> iassumption

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem kept {r : PUnit × MemSt nD τ sig (Elt F)} (h : ∀ c : Dev nD, ∀ b ∈ Pipeline.ucRefs τ sig, r.2.mem (((c : Thread nD τ)).1, b) = Y13 m c b)
    (c : Dev nD) : args.Forall fun b => r.2.mem ((c.tc : Thread nD τ).loc b) = m ((c.tc : Thread nD τ).loc b) :=
  have k (b : Ref sig .tc) (hb : ¬ (Proc.devRef .tc b : DevRef τ sig).isScoped) (e : V13 m (outsH m) c b = m ((c.tc : Thread nD τ).loc b)) :
      r.2.mem ((c.tc : Thread nD τ).loc b) = m ((c.tc : Thread nD τ).loc b) :=
    (h c _ (mem_uc b hb)).trans ((congrFun (V13_eq m c).symm _).trans e)
  ⟨k main_arg0 (by decide) (V13_main_arg0 m _ c),
    k main_arg1 (by decide) (V13_main_arg1 m _ c),
    k main_arg2 (by decide) (V13_main_arg2 m _ c),
    k main_arg3 (by decide) (V13_main_arg3 m _ c),
    k main_arg4 (by decide) (V13_main_arg4 m _ c),
    k main_arg5 (by decide) (V13_main_arg5 m _ c),
    k main_arg6 (by decide) (V13_main_arg6 m _ c),
    k main_arg7 (by decide) (V13_main_arg7 m _ c),
    k main_arg8 (by decide) (V13_main_arg8 m _ c),
    k main_arg9 (by decide) (V13_main_arg9 m _ c),
    k main_arg10 (by decide) (V13_main_arg10 m _ c),
    k main_arg11 (by decide) (V13_main_arg11 m _ c),
    k main_arg12 (by decide) (V13_main_arg12 m _ c),
    k main_arg13 (by decide) (V13_main_arg13 m _ c),
    k main_arg14 (by decide) (V13_main_arg14 m _ c),
    k main_arg15 (by decide) (V13_main_arg15 m _ c),
    k main_arg16 (by decide) (V13_main_arg16 m _ c),
    k main_arg17 (by decide) (V13_main_arg17 m _ c),
    k main_arg18 (by decide) (V13_main_arg18 m _ c),
    k main_arg19 (by decide) (V13_main_arg19 m _ c),
    k main_arg20 (by decide) (V13_main_arg20 m _ c),
    k main_arg21 (by decide) (V13_main_arg21 m _ c),
    k main_arg22 (by decide) (V13_main_arg22 m _ c)⟩

theorem frame : θ_run defs (onTc (τ := τ) (main (F := F))) ⟨m, fun _ => 0, ρ⟩ (fun r => ∀ c : Dev nD,
    args.Forall fun b => r.2.mem ((c.tc : Thread nD τ).loc b) = m ((c.tc : Thread nD τ).loc b)) :=
  (θ_run defs _ _).mono (fun _ h => kept m h) (run_all m ρ)

end Cert.Kernel.GenH

end
-- ==== Proof.KI.RegA0.lean ====
import proofs.«408255_j5076651344425_4_alg».proof.Proof.Gen.KernelIdeal.Launch
import proofs.«408255_j5076651344425_4_alg».proof.Proof.Gen.KernelIdeal.Skeleton
import proofs.«408255_j5076651344425_4_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring

noncomputable section

namespace Cert.KernelIdeal.GenH

open Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

section
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S8192x32 := Rect.unit (s := S8192x32) ![0, 0] S8192x32.size inb_S8192x32_S8192x32_0_0
abbrev r0_1 : Rect S32x64 := Rect.unit (s := S32x64) ![0, 0] S32x64.size inb_S32x64_S32x64_0_0
abbrev r0_2 : Rect S8192x64 := Rect.unit (s := S8192x64) ![0, 0] S8192x64.size inb_S8192x64_S8192x64_0_0

def out0_2 (x0 : Vec F S8192x32 .f32) (x1 : Vec F S32x64 .f32) : Vec F S8192x64 .bf16 :=
  View.canon [⟨r0_2, k0_pay1 (View.ld x0 r0_0) (View.ld x1 r0_1)⟩]

-- The written rectangle is the whole shape, so the output reads as the payload.
theorem sound_kernel0 (c : Dev nD) {i arg0 harg0 arg1 harg1 arg2 harg2 x0 x1} (R S : sProp 𝕄) :
    iprop(R ∗ S ∗ owns c.tc arg0 fullShare x0 ∗ owns c.tc arg1 fullShare x1 ∗ ∃ d, owns c.tc arg2 fullShare d)
      ⊢ wp frame (wpE (defs₀ (F := F)) Variants.none c none) Set.univ (cc0_kernel i arg0 harg0 arg1 harg1 arg2 harg2) fun _ =>
        iprop(R ∗ S ∗ owns c.tc arg0 fullShare x0 ∗ owns c.tc arg1 fullShare x1 ∗ owns c.tc arg2 fullShare (out0_2 x0 x1)) := by
  simp only [cc0_kernel_eq_skeleton]; unfold cc0_kernel_skel
  rw [owns_eq_rep _ arg0, owns_eq_rep _ arg1]
  unfold owns
  iintro ⟨HR, HS, H0, H1, %d2, %f2, -, H2⟩
  sl_exec
  sl_step
  iframe HR HS H0 H1
  iexists _; isplitr
  swap; · iexact H2
  ipureintro
  simp only [View.readAt_rep]
  exact View.read_writes_eq_canon _ _ _ (View.cover_of_tiled _ S8192x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by
  dsimp only [dat0]

theorem before0 (c : Dev nD) : ∀ w : Fin cfg0.W, w ≠ 2 → ∀ t d, (dat0 V c).before w t d = (dat0 V c).fetched w t d
  | ⟨0, _⟩, _ | ⟨1, _⟩, _ => (dat0 V c).before_in_eq_fetched _ rfl (fun _ => rfl) (fun _ _ _ => rfl) (fun _ => rfl)
  | ⟨2, _⟩, h => absurd rfl h

theorem body_obligation0 (c : Dev nD) : BodyObligation (dat0 (F := F) V c) (defs₀ (F := F)) Variants.none () Set.univ := fun t => by
  rw [bigSep_W0, bigSep_W0]
  simp only [before0 V c 0 (by decide), before0 V c 1 (by decide)]
  dsimp only [dat0, Dat.fetched, Dat.blockOf]
  show _ ⊢ wp _ _ _ (bodyAt0 t) _
  iintro ⟨HΦ, Ho, ⟨%d0, H0⟩, ⟨%d1, H1⟩, %d2, H2⟩
  iapply (sound_kernel0 c (x0 := iblk0 V c 0 t) (x1 := iblk0 V c 1 t) _ _)
  iframe HΦ
  isplitl [Ho]; · iexact Ho
  isplitl [H0]; · iexact H0
  isplitl [H1]; · iexact H1
  iexists _; iexact H2

end

end Cert.KernelIdeal.GenH
-- ==== Proof.KI.RegA1.lean ====
import proofs.«408255_j5076651344425_4_alg».proof.Proof.Gen.KernelIdeal.Launch
import proofs.«408255_j5076651344425_4_alg».proof.Proof.Gen.KernelIdeal.Skeleton
import proofs.«408255_j5076651344425_4_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.GenH

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S8192x64 := Rect.unit (s := S8192x64) ![0, 0] S8192x64.size inb_S8192x64_S8192x64_0_0
abbrev r1_1 : Rect S8192x8 := Rect.unit (s := S8192x8) ![0, 0] S8192x8.size inb_S8192x8_S8192x8_0_0
abbrev r1_2 : Rect S8x64 := Rect.unit (s := S8x64) ![0, 0] S8x64.size inb_S8x64_S8x64_0_0
abbrev r1_3 : Rect S1x64 := Rect.unit (s := S1x64) ![0, 0] S1x64.size inb_S1x64_S1x64_0_0
abbrev r1_4 : Rect S64x64 := Rect.unit (s := S64x64) ![0, 0] S64x64.size inb_S64x64_S64x64_0_0
abbrev r1_5 : Rect S1x64 := Rect.unit (s := S1x64) ![0, 0] S1x64.size inb_S1x64_S1x64_0_0
abbrev r1_6 : Rect S8192x64 := Rect.unit (s := S8192x64) ![0, 0] S8192x64.size inb_S8192x64_S8192x64_0_0

def out1_6 (x0 : Vec F S8192x64 .bf16) (x1 : Vec F S8192x8 .f32) (x2 : Vec F S8x64 .f32) (x3 : Vec F S1x64 .f32) (x4 : Vec F S64x64 .f32) (x5 : Vec F S1x64 .f32) : Vec F S8192x64 .bf16 :=
  View.canon [⟨r1_6, k1_pay1 (View.ld x0 r1_0) (View.ld x1 r1_1) (View.ld x2 r1_2) (View.ld x3 r1_3) (View.ld x4 r1_4) (View.ld x5 r1_5)⟩]

theorem sound_kernel1 (c : Dev nD) {i arg0 harg0 arg1 harg1 arg2 harg2 arg3 harg3 arg4 harg4 arg5 harg5 arg6 harg6 x0 x1 x2 x3 x4 x5} (R S : sProp 𝕄) :
    iprop(R ∗ S ∗ owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ ∃ d, owns c.tc arg6 fullShare d)
      ⊢ wp frame (wpE (defs₀ (F := F)) Variants.none c none) Set.univ (cc1_kernel i arg0 harg0 arg1 harg1 arg2 harg2 arg3 harg3 arg4 harg4 arg5 harg5 arg6 harg6) fun _ =>
        iprop(R ∗ S ∗ owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare (out1_6 x0 x1 x2 x3 x4 x5)) := by
  simp only [cc1_kernel_eq_skeleton]; unfold cc1_kernel_skel
  rw [owns_eq_rep _ arg0, owns_eq_rep _ arg1, owns_eq_rep _ arg2, owns_eq_rep _ arg3, owns_eq_rep _ arg4, owns_eq_rep _ arg5]
  unfold owns
  iintro ⟨HR, HS, H0, H1, H2, H3, H4, H5, %d6, %f6, -, H6⟩
  sl_exec
  sl_step
  iframe HR HS H0 H1 H2 H3 H4 H5
  iexists _; isplitr
  swap; · iexact H6
  ipureintro
  simp only [View.readAt_rep]
  exact View.read_writes_eq_canon _ _ _ (View.cover_of_tiled _ S8192x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1 (c : Dev nD) : ∀ w : Fin cfg1.W, w ≠ 6 → ∀ t d, (dat1 V c).before w t d = (dat1 V c).fetched w t d
  | ⟨0, _⟩, _ | ⟨1, _⟩, _ | ⟨2, _⟩, _ | ⟨3, _⟩, _ | ⟨4, _⟩, _ | ⟨5, _⟩, _ => (dat1 V c).before_in_eq_fetched _ rfl (fun _ => rfl) (fun _ _ _ => rfl) (fun _ => rfl)
  | ⟨6, _⟩, h => absurd rfl h

theorem body_obligation1 (c : Dev nD) : BodyObligation (dat1 (F := F) V c) (defs₀ (F := F)) Variants.none () Set.univ := fun t => by
  rw [bigSep_W1, bigSep_W1]
  simp only [before1 V c 0 (by decide), before1 V c 1 (by decide), before1 V c 2 (by decide), before1 V c 3 (by decide), before1 V c 4 (by decide), before1 V c 5 (by decide)]
  dsimp only [dat1, Dat.fetched, Dat.blockOf]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, %d6, H6⟩
  iapply (sound_kernel1 c (x0 := iblk1 V c 0 t) (x1 := iblk1 V c 1 t) (x2 := iblk1 V c 2 t) (x3 := iblk1 V c 3 t) (x4 := iblk1 V c 4 t) (x5 := iblk1 V c 5 t) _ _)
  iframe HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

end Region1

end Cert.KernelIdeal.GenH
-- ==== Proof.KI.RegA2.lean ====
import proofs.«408255_j5076651344425_4_alg».proof.Proof.Gen.KernelIdeal.Launch
import proofs.«408255_j5076651344425_4_alg».proof.Proof.Gen.KernelIdeal.Skeleton
import proofs.«408255_j5076651344425_4_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring

noncomputable section

namespace Cert.KernelIdeal.GenH

open Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

section
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S8192x64 := Rect.unit (s := S8192x64) ![0, 0] S8192x64.size inb_S8192x64_S8192x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

def out2_3 (x0 : Vec F S8192x64 .f32) (x1 : Vec F S64x64 .f32) (x2 : Vec F S1x64 .f32) : Vec F S8192x64 .bf16 :=
  View.canon [⟨r2_0, k2_pay1 (View.ld x0 r2_0) (View.ld x2 r2_2) (View.ld x1 r2_1)⟩]

-- The written rectangle is the whole shape, so the output reads as the payload.
theorem sound_kernel2 (c : Dev nD) {i arg0 harg0 arg1 harg1 arg2 harg2 arg3 harg3 x0 x1 x2} (R S : sProp 𝕄) :
    iprop(R ∗ S ∗ owns c.tc arg0 fullShare x0 ∗ owns c.tc arg1 fullShare x1 ∗ owns c.tc arg2 fullShare x2 ∗ ∃ d, owns c.tc arg3 fullShare d)
      ⊢ wp frame (wpE (defs₀ (F := F)) Variants.none c none) Set.univ (cc2_kernel i arg0 harg0 arg1 harg1 arg2 harg2 arg3 harg3) fun _ =>
        iprop(R ∗ S ∗ owns c.tc arg0 fullShare x0 ∗ owns c.tc arg1 fullShare x1 ∗ owns c.tc arg2 fullShare x2 ∗ owns c.tc arg3 fullShare (out2_3 x0 x1 x2)) := by
  simp only [cc2_kernel_eq_skeleton]; unfold cc2_kernel_skel
  rw [owns_eq_rep _ arg0, owns_eq_rep _ arg1, owns_eq_rep _ arg2]
  unfold owns
  iintro ⟨HR, HS, H0, H1, H2, %d3, %f3, -, H3⟩
  sl_exec
  sl_step
  iframe HR HS H0 H1 H2
  iexists _; isplitr
  swap; · iexact H3
  ipureintro
  simp only [View.readAt_rep]
  exact View.read_writes_eq_canon _ _ _ (View.cover_of_tiled _ S8192x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by
  dsimp only [dat2]

theorem before2 (c : Dev nD) : ∀ w : Fin cfg2.W, w ≠ 3 → ∀ t d, (dat2 V c).before w t d = (dat2 V c).fetched w t d
  | ⟨0, _⟩, _ | ⟨1, _⟩, _ | ⟨2, _⟩, _ => (dat2 V c).before_in_eq_fetched _ rfl (fun _ => rfl) (fun _ _ _ => rfl) (fun _ => rfl)
  | ⟨3, _⟩, h => absurd rfl h

theorem body_obligation2 (c : Dev nD) : BodyObligation (dat2 (F := F) V c) (defs₀ (F := F)) Variants.none () Set.univ := fun t => by
  rw [bigSep_W2, bigSep_W2]
  simp only [before2 V c 0 (by decide), before2 V c 1 (by decide), before2 V c 2 (by decide)]
  dsimp only [dat2, Dat.fetched, Dat.blockOf]
  show _ ⊢ wp _ _ _ (bodyAt2 t) _
  iintro ⟨HΦ, Ho, ⟨%d0, H0⟩, ⟨%d1, H1⟩, ⟨%d2, H2⟩, %d3, H3⟩
  iapply (sound_kernel2 c (x0 := iblk2 V c 0 t) (x1 := iblk2 V c 1 t) (x2 := iblk2 V c 2 t) _ _)
  iframe HΦ
  isplitl [Ho]; · iexact Ho
  isplitl [H0]; · iexact H0
  isplitl [H1]; · iexact H1
  isplitl [H2]; · iexact H2
  iexists _; iexact H3

end

end Cert.KernelIdeal.GenH
-- ==== Proof.KI.RegA3.lean ====
import proofs.«408255_j5076651344425_4_alg».proof.Proof.Gen.KernelIdeal.Launch
import proofs.«408255_j5076651344425_4_alg».proof.Proof.Gen.KernelIdeal.Skeleton
import proofs.«408255_j5076651344425_4_alg».proof.Proof.Gen.KernelIdeal.Points
import proofs.«408255_j5076651344425_4_alg».proof.Proof.KI.RegA1
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.GenH

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S8192x64 := Rect.unit (s := S8192x64) ![0, 0] S8192x64.size inb_S8192x64_S8192x64_0_0
abbrev r3_1 : Rect S8192x8 := Rect.unit (s := S8192x8) ![0, 0] S8192x8.size inb_S8192x8_S8192x8_0_0
abbrev r3_2 : Rect S8x64 := Rect.unit (s := S8x64) ![0, 0] S8x64.size inb_S8x64_S8x64_0_0
abbrev r3_3 : Rect S1x64 := Rect.unit (s := S1x64) ![0, 0] S1x64.size inb_S1x64_S1x64_0_0
abbrev r3_4 : Rect S64x64 := Rect.unit (s := S64x64) ![0, 0] S64x64.size inb_S64x64_S64x64_0_0
abbrev r3_5 : Rect S1x64 := Rect.unit (s := S1x64) ![0, 0] S1x64.size inb_S1x64_S1x64_0_0
abbrev r3_6 : Rect S8192x64 := Rect.unit (s := S8192x64) ![0, 0] S8192x64.size inb_S8192x64_S8192x64_0_0

def out3_6 (x0 : Vec F S8192x64 .bf16) (x1 : Vec F S8192x8 .f32) (x2 : Vec F S8x64 .f32) (x3 : Vec F S1x64 .f32) (x4 : Vec F S64x64 .f32) (x5 : Vec F S1x64 .f32) : Vec F S8192x64 .bf16 :=
  View.canon [⟨r3_6, k3_pay1 (View.ld x0 r3_0) (View.ld x1 r3_1) (View.ld x2 r3_2) (View.ld x3 r3_3) (View.ld x4 r3_4) (View.ld x5 r3_5)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3 (c : Dev nD) : ∀ w : Fin cfg3.W, w ≠ 6 → ∀ t d, (dat3 V c).before w t d = (dat3 V c).fetched w t d
  | ⟨0, _⟩, _ | ⟨1, _⟩, _ | ⟨2, _⟩, _ | ⟨3, _⟩, _ | ⟨4, _⟩, _ | ⟨5, _⟩, _ => (dat3 V c).before_in_eq_fetched _ rfl (fun _ => rfl) (fun _ _ _ => rfl) (fun _ => rfl)
  | ⟨6, _⟩, h => absurd rfl h

theorem body_obligation3 (c : Dev nD) : BodyObligation (dat3 (F := F) V c) (defs₀ (F := F)) Variants.none () Set.univ := fun t => by
  show _ ⊢ wp _ _ _ (bodyAt3 t) _
  unfold bodyAt3
  rw [show cc3_kernel (F := F) = cc1_kernel from rfl, bigSep_W3, bigSep_W3]
  simp only [before3 V c 0 (by decide), before3 V c 1 (by decide), before3 V c 2 (by decide), before3 V c 3 (by decide), before3 V c 4 (by decide), before3 V c 5 (by decide)]
  dsimp only [dat3, Dat.fetched, Dat.blockOf]
  rw [show out3_6 (F := F) = out1_6 from rfl]
  iintro ⟨HΦ, Ho, ⟨%d0, H0⟩, ⟨%d1, H1⟩, ⟨%d2, H2⟩, ⟨%d3, H3⟩, ⟨%d4, H4⟩, ⟨%d5, H5⟩, %d6, H6⟩
  iapply (sound_kernel1 c (x0 := iblk3 V c 0 t) (x1 := iblk3 V c 1 t) (x2 := iblk3 V c 2 t) (x3 := iblk3 V c 3 t) (x4 := iblk3 V c 4 t) (x5 := iblk3 V c 5 t) _ _)
  iframe HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

end Region3

end Cert.KernelIdeal.GenH
-- ==== Proof.KI.RegA4.lean ====
import proofs.«408255_j5076651344425_4_alg».proof.Proof.Gen.KernelIdeal.Launch
import proofs.«408255_j5076651344425_4_alg».proof.Proof.Gen.KernelIdeal.Skeleton
import proofs.«408255_j5076651344425_4_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring

noncomputable section

namespace Cert.KernelIdeal.GenH

open Cert.KernelIdeal.Gen
open Idealize.ShloMosaic Idealize.ShloMosaic.TcCoe Idealize.ShloMosaic.Tactic
open Idealize.SL Idealize.SL.RA Idealize.SL.BI
open Idealize.SL.BI.BIBase Idealize.SL.ProofMode Idealize.SL.Sem
open Idealize.ShloMosaic.Pipeline (Dat BodyObligation)

section
variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S8192x64 := Rect.unit (s := S8192x64) ![0, 0] S8192x64.size inb_S8192x64_S8192x64_0_0
abbrev r4_1 : Rect S64x1 := Rect.unit (s := S64x1) ![0, 0] S64x1.size inb_S64x1_S64x1_0_0
abbrev r4_2 : Rect S1x64 := Rect.unit (s := S1x64) ![0, 0] S1x64.size inb_S1x64_S1x64_0_0
abbrev r4_3 : Rect S8192x1 := Rect.unit (s := S8192x1) ![0, 0] S8192x1.size inb_S8192x1_S8192x1_0_0

def out4_3 (x0 : Vec F S8192x64 .f32) (x1 : Vec F S64x1 .f32) (x2 : Vec F S1x64 .f32) : Vec F S8192x1 .f32 :=
  View.canon [⟨r4_3, k4_pay1 (View.ld x0 r4_0) (View.ld x2 r4_2) (View.ld x1 r4_1)⟩]

-- The written rectangle is the whole shape, so the output reads as the payload.
theorem sound_kernel4 (c : Dev nD) {i arg0 harg0 arg1 harg1 arg2 harg2 arg3 harg3 x0 x1 x2} (R S : sProp 𝕄) :
    iprop(R ∗ S ∗ owns c.tc arg0 fullShare x0 ∗ owns c.tc arg1 fullShare x1 ∗ owns c.tc arg2 fullShare x2 ∗ ∃ d, owns c.tc arg3 fullShare d)
      ⊢ wp frame (wpE (defs₀ (F := F)) Variants.none c none) Set.univ (cc4_kernel i arg0 harg0 arg1 harg1 arg2 harg2 arg3 harg3) fun _ =>
        iprop(R ∗ S ∗ owns c.tc arg0 fullShare x0 ∗ owns c.tc arg1 fullShare x1 ∗ owns c.tc arg2 fullShare x2 ∗ owns c.tc arg3 fullShare (out4_3 x0 x1 x2)) := by
  simp only [cc4_kernel_eq_skeleton]; unfold cc4_kernel_skel
  rw [owns_eq_rep _ arg0, owns_eq_rep _ arg1, owns_eq_rep _ arg2]
  unfold owns
  iintro ⟨HR, HS, H0, H1, H2, %d3, %f3, -, H3⟩
  sl_exec
  sl_step
  iframe HR HS H0 H1 H2
  iexists _; isplitr
  swap; · iexact H3
  ipureintro
  simp only [View.readAt_rep]
  exact View.read_writes_eq_canon _ _ _ (View.cover_of_tiled _ S8192x1.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = out4_3 (iblk4 V c 0 t) (iblk4 V c 1 t) (iblk4 V c 2 t) := by
  dsimp only [dat4]

theorem before4 (c : Dev nD) : ∀ w : Fin cfg4.W, w ≠ 3 → ∀ t d, (dat4 V c).before w t d = (dat4 V c).fetched w t d
  | ⟨0, _⟩, _ | ⟨1, _⟩, _ | ⟨2, _⟩, _ => (dat4 V c).before_in_eq_fetched _ rfl (fun _ => rfl) (fun _ _ _ => rfl) (fun _ => rfl)
  | ⟨3, _⟩, h => absurd rfl h

theorem body_obligation4 (c : Dev nD) : BodyObligation (dat4 (F := F) V c) (defs₀ (F := F)) Variants.none () Set.univ := fun t => by
  rw [bigSep_W4, bigSep_W4]
  simp only [before4 V c 0 (by decide), before4 V c 1 (by decide), before4 V c 2 (by decide)]
  dsimp only [dat4, Dat.fetched, Dat.blockOf]
  show _ ⊢ wp _ _ _ (bodyAt4 t) _
  iintro ⟨HΦ, Ho, ⟨%d0, H0⟩, ⟨%d1, H1⟩, ⟨%d2, H2⟩, %d3, H3⟩
  iapply (sound_kernel4 c (x0 := iblk4 V c 0 t) (x1 := iblk4 V c 1 t) (x2 := iblk4 V c 2 t) _ _)
  iframe HΦ
  isplitl [Ho]; · iexact Ho
  isplitl [H0]; · iexact H0
  isplitl [H1]; · iexact H1
  isplitl [H2]; · iexact H2
  iexists _; iexact H3

end

end Cert.KernelIdeal.GenH
-- ==== Proof.KI.RegA5.lean ====
import proofs.«408255_j5076651344425_4_alg».proof.Proof.Gen.KernelIdeal.Launch
import proofs.«408255_j5076651344425_4_alg».proof.Proof.Gen.KernelIdeal.Skeleton
import proofs.«408255_j5076651344425_4_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.GenH

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S8192x1 := Rect.unit (s := S8192x1) ![0, 0] S8192x1.size inb_S8192x1_S8192x1_0_0
abbrev r5_1 : Rect S8192x8 := Rect.unit (s := S8192x8) ![0, 0] S8192x8.size inb_S8192x8_S8192x8_0_0
abbrev r5_2 : Rect S8x1 := Rect.unit (s := S8x1) ![0, 0] S8x1.size inb_S8x1_S8x1_0_0
abbrev r5_3 : Rect S1x1 := Rect.unit (s := S1x1) ![0, 0] S1x1.size inb_S1x1_S1x1_0_0
abbrev r5_4 : Rect S1x1 := Rect.unit (s := S1x1) ![0, 0] S1x1.size inb_S1x1_S1x1_0_0
abbrev r5_5 : Rect S1x1 := Rect.unit (s := S1x1) ![0, 0] S1x1.size inb_S1x1_S1x1_0_0
abbrev r5_6 : Rect S8192x1 := Rect.unit (s := S8192x1) ![0, 0] S8192x1.size inb_S8192x1_S8192x1_0_0

def out5_6 (x0 : Vec F S8192x1 .f32) (x1 : Vec F S8192x8 .f32) (x2 : Vec F S8x1 .f32) (x3 : Vec F S1x1 .f32) (x4 : Vec F S1x1 .f32) (x5 : Vec F S1x1 .f32) : Vec F S8192x1 .f32 :=
  View.canon [⟨r5_6, k5_pay1 (View.ld x0 r5_0) (View.ld x1 r5_1) (View.ld x2 r5_2) (View.ld x3 r5_3) (View.ld x4 r5_4) (View.ld x5 r5_5)⟩]

theorem sound_kernel5 (c : Dev nD) {i arg0 harg0 arg1 harg1 arg2 harg2 arg3 harg3 arg4 harg4 arg5 harg5 arg6 harg6 x0 x1 x2 x3 x4 x5} (R S : sProp 𝕄) :
    iprop(R ∗ S ∗ owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ ∃ d, owns c.tc arg6 fullShare d)
      ⊢ wp frame (wpE (defs₀ (F := F)) Variants.none c none) Set.univ (cc5_kernel i arg0 harg0 arg1 harg1 arg2 harg2 arg3 harg3 arg4 harg4 arg5 harg5 arg6 harg6) fun _ =>
        iprop(R ∗ S ∗ owns c.tc arg0 fullShare x0 ∗ owns c.tc arg1 fullShare x1 ∗ owns c.tc arg2 fullShare x2 ∗ owns c.tc arg3 fullShare x3 ∗ owns c.tc arg4 fullShare x4 ∗ owns c.tc arg5 fullShare x5 ∗ owns c.tc arg6 fullShare (out5_6 x0 x1 x2 x3 x4 x5)) := by
  simp only [cc5_kernel_eq_skeleton]; unfold cc5_kernel_skel
  rw [owns_eq_rep _ arg0, owns_eq_rep _ arg1, owns_eq_rep _ arg2, owns_eq_rep _ arg3, owns_eq_rep _ arg4, owns_eq_rep _ arg5]
  unfold owns
  iintro ⟨HR, HS, H0, H1, H2, H3, H4, H5, %d6, %f6, -, H6⟩
  sl_exec
  sl_step
  iframe HR HS H0 H1 H2 H3 H4 H5
  iexists _; isplitr
  swap; · iexact H6
  ipureintro
  simp only [View.readAt_rep]
  exact View.read_writes_eq_canon _ _ _ (View.cover_of_tiled _ S8192x1.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5 (c : Dev nD) : ∀ w : Fin cfg5.W, w ≠ 6 → ∀ t d, (dat5 V c).before w t d = (dat5 V c).fetched w t d
  | ⟨0, _⟩, _ | ⟨1, _⟩, _ | ⟨2, _⟩, _ | ⟨3, _⟩, _ | ⟨4, _⟩, _ | ⟨5, _⟩, _ => (dat5 V c).before_in_eq_fetched _ rfl (fun _ => rfl) (fun _ _ _ => rfl) (fun _ => rfl)
  | ⟨6, _⟩, h => absurd rfl h

theorem body_obligation5 (c : Dev nD) : BodyObligation (dat5 (F := F) V c) (defs₀ (F := F)) Variants.none () Set.univ := fun t => by
  rw [bigSep_W5, bigSep_W5]
  simp only [before5 V c 0 (by decide), before5 V c 1 (by decide), before5 V c 2 (by decide), before5 V c 3 (by decide), before5 V c 4 (by decide), before5 V c 5 (by decide)]
  dsimp only [dat5, Dat.fetched, Dat.blockOf]
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩, %d6, H6⟩
  iapply (sound_kernel5 c (x0 := iblk5 V c 0 t) (x1 := iblk5 V c 1 t) (x2 := iblk5 V c 2 t) (x3 := iblk5 V c 3 t) (x4 := iblk5 V c 4 t) (x5 := iblk5 V c 5 t) _ _)
  iframe HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

end Region5

end Cert.KernelIdeal.GenH
-- ==== Proof.KI.RegR6Runs.lean ====
import proofs.«408255_j5076651344425_4_alg».proof.Proof.Gen.KernelIdeal.Launch
import proofs.«408255_j5076651344425_4_alg».proof.Proof.Gen.KernelIdeal.Skeleton
import proofs.«408255_j5076651344425_4_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

def iblk6 (V : (c : Dev nD) → (b : Ref sig .tc) → Buf (Elt F) ((c : Thread nD τ).loc b)) (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1
theorem hcond6_1 : ∀ t : Fin cfg6.N, cond6_1 (grid6.coords t) ↔ t.val = 7 :=
  (by decide +kernel : ∀ t : Fin grid6.N, cond6_1 (grid6.coords t) ↔ t.val = 7)

theorem liveAt6 : ∀ (w : Fin cfg6.W) (t : Fin cfg6.N), w.val < 3 → cfg6.idle w (grid6.coords t) = false := by decide +kernel
theorem outAt6 : ∀ t : Fin cfg6.N, (t.val = 7 → cfg6.idle 3 (grid6.coords t) = false)
    ∧ (¬t.val = 7 → cfg6.idle 3 (grid6.coords t) = true ∧ (cfg6.win 3).flush t = false) := by decide +kernel

abbrev scM6_0 : Memref sig .tc .vmem S64x1 .f32 := Memref.whole cc6_scratch0
abbrev scM6_1 : Memref sig .tc .vmem S64x1 .f32 := Memref.whole cc6_scratch1

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

theorem hz1 : (![0] : Fin 1 → Nat) = fun _ => 0 := funext fun a => by fin_cases a; rfl
theorem hz2 : (![0, 0] : Fin 2 → Nat) = fun _ => 0 := funext fun a => by fin_cases a <;> rfl

-- The running sums and counts one run of the body leaves over `s`: the first point starts from the zero blocks.
def acc6 (i : grid6.Coords) (x0 : Vec F S8192x1 .f32) (x1 : Vec F S8192 .i32) (s : Vec F S64x1 .f32) : Vec F S64x1 .f32 :=
  k6_pay4 x1 (if cond6_0 i then k6_pay1 else s) x0
def cnt6 (i : grid6.Coords) (x1 : Vec F S8192 .i32) (s : Vec F S64x1 .f32) : Vec F S64x1 .f32 :=
  k6_pay5 x1 (if cond6_0 i then k6_pay2 else s)

set_option maxHeartbeats 1000000 in
theorem kernelRun6 (c : Dev nD) (i : grid6.Coords) (arg1 : Memref sig .tc .vmem S8192x1 .f32) (harg1 : arg1.IsWhole) (arg2 : Memref sig .tc .vmem S8192 .i32) (harg2 : arg2.IsWhole) (arg3 : Memref sig .tc .vmem S1x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole)
    (h01 : ¬(cond6_0 i ∧ cond6_1 i))
    (x0 : Vec F S8192x1 .f32) (x1 : Vec F S8192 .i32) (x2 : Vec F S1x1 .f32) (x3 s0 s1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (if cond6_1 i then k6_pay6 (acc6 i x0 x1 s0) (cnt6 i x1 s1) x2 else x3)
            ∗ owns (c : Thread nD τ) arg5 fullShare (acc6 i x0 x1 s0) ∗ owns (c : Thread nD τ) arg6 fullShare (cnt6 i x1 s1)) -∗ K ⟨⟩))
      ⊢ wp frame (wpE (defs₀ (F := F)) Variants.none c none) E (cc6_kernel i arg1 harg1 arg2 harg2 arg3 harg3 arg4 harg4 arg5 harg5 arg6 harg6) K := by
  simp only [cc6_kernel_eq_skeleton]; unfold cc6_kernel_skel acc6 cnt6 owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  by_cases hc0 : cond6_0 i <;> by_cases hc1 : cond6_1 i
  · exact absurd ⟨hc0, hc1⟩ h01
  all_goals
    first | rw [if_pos hc1] | rw [if_neg hc1]
    first | rw [if_pos hc0, if_pos hc0] | rw [if_neg hc0, if_neg hc0]
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      first | exact harg4.read_unread _ | (rw [View.read_writes_eq_canon _ _ _ (View.cover_of_tiledL _ S64x1.size (by sl_kernel_rfl))]; sl_unfold_run_names; simp only [View.readAt_eq_ld, harg1.read_unread, harg2.read_unread, harg3.read_unread, harg5.read_unread, harg6.read_unread,
      View.ld_unit_zero (S := S8192x1) hz2, View.ld_unit_zero (S := S8192) hz1, View.ld_unit_zero (S := S1x1) hz2, View.ld_unit_zero (S := S64x1) hz2,
      View.readCov_unit_zero (S := S64x1) _ hz2, View.canon_cons_unit_zero (S := S64x1) hz2])
    isplitl [H4]
    · iexists _; isplitr
      swap; · iexact H4
      ipureintro
      rw [View.read_writes_eq_canon _ _ _ (View.cover_of_tiledL _ S64x1.size (by sl_kernel_rfl))]; sl_unfold_run_names
      simp only [View.readAt_eq_ld, harg1.read_unread, harg2.read_unread, harg3.read_unread, harg5.read_unread, harg6.read_unread,
      View.ld_unit_zero (S := S8192x1) hz2, View.ld_unit_zero (S := S8192) hz1, View.ld_unit_zero (S := S1x1) hz2, View.ld_unit_zero (S := S64x1) hz2,
      View.readCov_unit_zero (S := S64x1) _ hz2, View.canon_cons_unit_zero (S := S64x1) hz2]
    iexists _; isplitr
    swap; · iexact H5
    ipureintro
    rw [View.read_writes_eq_canon _ _ _ (View.cover_of_tiledL _ S64x1.size (by sl_kernel_rfl))]; sl_unfold_run_names
    simp only [View.readAt_eq_ld, harg1.read_unread, harg2.read_unread, harg3.read_unread, harg5.read_unread, harg6.read_unread,
      View.ld_unit_zero (S := S8192x1) hz2, View.ld_unit_zero (S := S8192) hz1, View.ld_unit_zero (S := S1x1) hz2, View.ld_unit_zero (S := S64x1) hz2,
      View.readCov_unit_zero (S := S64x1) _ hz2, View.canon_cons_unit_zero (S := S64x1) hz2]

end Cert.KernelIdeal.GenH

end
-- ==== Proof.KI.RegR6.lean ====
import proofs.«408255_j5076651344425_4_alg».proof.Proof.KI.RegR6Runs

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Frame
variable (V : (c : Dev nD) → (b : Ref sig .tc) → Buf (Elt F) ((c : Thread nD τ).loc b))

-- The output block and the two accumulators after the body at point `t`, over the accumulators `s` before it.
def step6 (c : Dev nD) (t : Fin cfg6.N) (s : Vec F S64x1 .f32 × Vec F S64x1 .f32) : Vec F S64x1 .f32 × Vec F S64x1 .f32 × Vec F S64x1 .f32 :=
  let a := acc6 (grid6.coords t) (iblk6 V c 0 t) (iblk6 V c 1 t) s.1
  let n := cnt6 (grid6.coords t) (iblk6 V c 1 t) s.2
  (k6_pay6 a n (iblk6 V c 2 t), a, n)

def outsAt6 (c : Dev nD) : (n : ℕ) → n < cfg6.N → Vec F S64x1 .f32 × Vec F S64x1 .f32 × Vec F S64x1 .f32
  | 0, hn => step6 V c ⟨0, hn⟩ (k6_pay1, k6_pay2)
  | n + 1, hn => step6 V c ⟨n + 1, hn⟩ (outsAt6 c n (Nat.lt_of_succ_lt hn)).2

-- At the first point the accumulators before it do not matter; afterwards they are what the point before left.
theorem outsAt6_eq (c : Dev nD) (t : Fin cfg6.N) (s : Vec F S64x1 .f32 × Vec F S64x1 .f32)
    (hs : ∀ h : t.val ≠ 0, s = (outsAt6 V c (t.val - 1) (Nat.lt_of_le_of_lt (Nat.sub_le _ _) t.isLt)).2) :
    outsAt6 V c t.val t.isLt = step6 V c t s := by
  obtain ⟨n, hn⟩ := t
  cases n with
  | zero =>
    show step6 V c ⟨0, hn⟩ (k6_pay1, k6_pay2) = step6 V c ⟨0, hn⟩ s
    unfold step6 acc6 cnt6; simp only [if_pos ((hcond6_0 ⟨0, hn⟩).mpr rfl)]
  | succ n => rw [hs (Nat.succ_ne_zero n)]; rfl

def PhiS6 (c : Dev nD) (n : ℕ) (hn : n ≤ cfg6.N) : sProp 𝕄 :=
  iprop(∃ s0, ∃ s1, ⌜∀ h : n ≠ 0, (s0, s1) = (outsAt6 V c (n - 1) (by omega)).2⌝
    ∗ owns (c : Thread nD τ) scM6_0 fullShare s0 ∗ owns (c : Thread nD τ) scM6_1 fullShare s1 ∗ rest6 (F := F) c ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem before6 (c : Dev nD) (t : Fin cfg6.N) : (∀ d, (dat6 V c).before 0 t d = iblk6 V c 0 t)
    ∧ (∀ d, (dat6 V c).before 1 t d = iblk6 V c 1 t) ∧ (∀ d, (dat6 V c).before 2 t d = iblk6 V c 2 t) := by
  refine ⟨fun d => ?_, fun d => ?_, fun d => ?_⟩ <;>
  exact ((dat6 V c).before_in_eq_fetched _ rfl (fun _ => rfl) (fun _ _ _ => rfl) (fun t => by dsimp only [dat6]; unfold Dat.blockOf iblk6; try rfl) t d).trans
    (by unfold Dat.fetched Dat.blockOf iblk6; dsimp only [dat6]; try rfl)

theorem sound_body6 (c : Dev nD) (t : Fin cfg6.N) :
    iprop((dat6 V c).Φ t.castSucc ∗ (dat6 V c).owesAt () t.castSucc
      ∗ (∃ d, owns (c : Thread nD τ) (win6_0.stage (cfg6.slots t 0)) fullShare ((dat6 V c).before 0 t d))
      ∗ (∃ d, owns (c : Thread nD τ) (win6_1.stage (cfg6.slots t 1)) fullShare ((dat6 V c).before 1 t d))
      ∗ (∃ d, owns (c : Thread nD τ) (win6_2.stage (cfg6.slots t 2)) fullShare ((dat6 V c).before 2 t d))
      ∗ (∃ d, owns (c : Thread nD τ) (win6_3.stage (cfg6.slots t 3)) fullShare ((dat6 V c).before 3 t d)))
      ⊢ wp frame (wpE (defs₀ (F := F)) Variants.none c none) Set.univ (bodyAt6 t) (fun _ =>
        iprop((dat6 V c).Φ t.succ ∗ (dat6 V c).owesAt () t.succ
          ∗ (dat6 V c).leavesExact 0 t ∗ (dat6 V c).leavesExact 1 t ∗ (dat6 V c).leavesExact 2 t ∗ (dat6 V c).leavesExact 3 t)) := by
  simp only [(before6 V c t).1, (before6 V c t).2.1, (before6 V c t).2.2]
  rw [show (dat6 V c).owesAt () t.succ = (dat6 V c).owesAt () t.castSucc from rfl,
    show (dat6 V c).Φ t.succ = PhiS6 V c (t.val + 1) t.isLt from rfl,
    show (dat6 V c).Φ t.castSucc = PhiS6 V c t.val (Nat.le_of_lt t.isLt) from rfl,
    show (dat6 V c).leavesExact 0 t = owns (c : Thread nD τ) (win6_0.stage (cfg6.slots t 0)) fullShare (iblk6 V c 0 t) from by
      unfold Dat.leavesExact; rw [liveAt6 0 t (by decide)]; rfl,
    show (dat6 V c).leavesExact 1 t = owns (c : Thread nD τ) (win6_1.stage (cfg6.slots t 1)) fullShare (iblk6 V c 1 t) from by
      unfold Dat.leavesExact; rw [liveAt6 1 t (by decide)]; rfl,
    show (dat6 V c).leavesExact 2 t = owns (c : Thread nD τ) (win6_2.stage (cfg6.slots t 2)) fullShare (iblk6 V c 2 t) from by
      unfold Dat.leavesExact; rw [liveAt6 2 t (by decide)]; rfl]
  unfold PhiS6
  iintro ⟨⟨%s0, %s1, %hs, HS0, HS1, Hr⟩, Ho, ⟨%d0, H0⟩, ⟨%d1, H1⟩, ⟨%d2, H2⟩, ⟨%d3, H3⟩⟩
  have e := outsAt6_eq V c t (s0, s1) hs
  iapply (kernelRun6 c (grid6.coords t) _ _ _ _ _ _ _ _ _ _ _ _ (fun h => by have := (hcond6_0 t).mp h.1; have := (hcond6_1 t).mp h.2; omega) (iblk6 V c 0 t) (iblk6 V c 1 t) (iblk6 V c 2 t) _ s0 s1 Set.univ _)
  iframe H0 H1 H2 H3 HS0 HS1
  iintro ⟨H0, H1, H2, H3, HS0, HS1⟩
  isplitl [HS0 HS1 Hr]
  · iexists _, _; isplitr
    swap; · iframe HS0 HS1 Hr
    ipureintro; exact fun _ => (congrArg (·.2) e).symm
  iframe Ho H0 H1 H2
  by_cases h1 : t.val = 7
  · rw [if_pos ((hcond6_1 t).mpr h1), show (dat6 V c).leavesExact 3 t = owns (c : Thread nD τ) (win6_3.stage (cfg6.slots t 3)) fullShare (step6 V c t (s0, s1)).1 from by
      unfold Dat.leavesExact; rw [(outAt6 t).1 h1, ← e]; rfl]
    iexact H3
  · rw [if_neg (fun h => h1 ((hcond6_1 t).mp h)), Dat.leavesExact_idle (dat6 V c) 3 t ((outAt6 t).2 h1).1 ((outAt6 t).2 h1).2]
    iexists _; iexact H3

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [PhiA6_eq, show (dat6 V c).Φ 0 = PhiS6 V c 0 (Nat.zero_le _) from rfl]; unfold PhiS6
  iintro ⟨⟨⟨⟨%s0, H0⟩, ⟨%s1, H1⟩⟩, Hr⟩, Hg⟩
  iexists s0, s1; isplitr; · ipureintro; exact fun h => absurd rfl h
  iframe H0 H1 Hr Hg

theorem hout6 (c : Dev nD) : (dat6 V c).Φ (Fin.last cfg6.N) ⊢ Pipeline.ΦA spec6 c := by
  rw [PhiA6_eq, show (dat6 V c).Φ (Fin.last cfg6.N) = PhiS6 V c cfg6.N (Nat.le_refl _) from rfl]; unfold PhiS6
  iintro ⟨%s0, %s1, -, H0, H1, Hr, Hg⟩
  isplitl [H0 H1 Hr]
  · isplitl [H0 H1]
    · isplitl [H0] <;> iexists _
      · iexact H0
      · iexact H1
    iexact Hr
  iexact Hg

end Frame

end Cert.KernelIdeal.GenH

end
-- ==== Proof.KI.Chain.lean ====
import proofs.«408255_j5076651344425_4_alg».proof.Proof.KI.RegA0
import proofs.«408255_j5076651344425_4_alg».proof.Proof.KI.RegA1
import proofs.«408255_j5076651344425_4_alg».proof.Proof.KI.RegA2
import proofs.«408255_j5076651344425_4_alg».proof.Proof.KI.RegA3
import proofs.«408255_j5076651344425_4_alg».proof.Proof.KI.RegA4
import proofs.«408255_j5076651344425_4_alg».proof.Proof.KI.RegA5
import proofs.«408255_j5076651344425_4_alg».proof.Proof.KI.RegR6
import proofs.«408255_j5076651344425_4_alg».proof.Proof.Gen.KernelIdeal.Regions

noncomputable section

namespace Cert.KernelIdeal.GenH

open Idealize.ShloMosaic Idealize.ShloMosaic.TcCoe
open Idealize.SL Idealize.SL.Sem
open Cert.KernelIdeal Cert.KernelIdeal.Gen
open Idealize.ShloMosaic.Pipeline (Dat)

variable {F : FTy → Type} [FloatOps F]
variable (m : (ℓ : Loc nD τ sig) → Buf (Elt F) ℓ)

abbrev atTc (Y : Dev nD → Valuation τ sig (Elt F)) : (c : Dev nD) → (b : Ref sig .tc) → Buf (Elt F) ((c : Thread nD τ).loc b) :=
  fun c b => Y c b

def Y0 (c : Dev nD) : Valuation τ sig (Elt F) := fun b => m (c, b)

def o1 (c : Dev nD) : Buf (Elt F) ((c : Thread nD τ).loc main_v0) := (dat0 (atTc (Y0 m)) c).arrAt 2 cfg0.N
def Y1 (c : Dev nD) : Valuation τ sig (Elt F) := Function.update (Y0 m c) main_v0 (o1 m c)
def Y2 (c : Dev nD) : Valuation τ sig (Elt F) := StableHlo.after hostOps1 (Y1 m c)

def o3 (c : Dev nD) : Buf (Elt F) ((c : Thread nD τ).loc main_v10) := (dat1 (atTc (Y2 m)) c).arrAt 6 cfg1.N
def Y3 (c : Dev nD) : Valuation τ sig (Elt F) := Function.update (Y2 m c) main_v10 (o3 m c)
def Y4 (c : Dev nD) : Valuation τ sig (Elt F) := StableHlo.after hostOps2 (Y3 m c)

def o5 (c : Dev nD) : Buf (Elt F) ((c : Thread nD τ).loc main_v16) := (dat2 (atTc (Y4 m)) c).arrAt 3 cfg2.N
def Y5 (c : Dev nD) : Valuation τ sig (Elt F) := Function.update (Y4 m c) main_v16 (o5 m c)
def Y6 (c : Dev nD) : Valuation τ sig (Elt F) := StableHlo.after hostOps3 (Y5 m c)

def o7 (c : Dev nD) : Buf (Elt F) ((c : Thread nD τ).loc main_v26) := (dat3 (atTc (Y6 m)) c).arrAt 6 cfg3.N
def Y7 (c : Dev nD) : Valuation τ sig (Elt F) := Function.update (Y6 m c) main_v26 (o7 m c)
def Y8 (c : Dev nD) : Valuation τ sig (Elt F) := StableHlo.after hostOps4 (Y7 m c)

def o9 (c : Dev nD) : Buf (Elt F) ((c : Thread nD τ).loc main_v32) := (dat4 (atTc (Y8 m)) c).arrAt 3 cfg4.N
def Y9 (c : Dev nD) : Valuation τ sig (Elt F) := Function.update (Y8 m c) main_v32 (o9 m c)
def Y10 (c : Dev nD) : Valuation τ sig (Elt F) := StableHlo.after hostOps5 (Y9 m c)

def o11 (c : Dev nD) : Buf (Elt F) ((c : Thread nD τ).loc main_v42) := (dat5 (atTc (Y10 m)) c).arrAt 6 cfg5.N
def Y11 (c : Dev nD) : Valuation τ sig (Elt F) := Function.update (Y10 m c) main_v42 (o11 m c)
def Y12 (c : Dev nD) : Valuation τ sig (Elt F) := StableHlo.after hostOps6 (Y11 m c)

def o13 (c : Dev nD) : Buf (Elt F) ((c : Thread nD τ).loc main_v47) := (dat6 (atTc (Y12 m)) c).arrAt 3 cfg6.N
def Y13 (c : Dev nD) : Valuation τ sig (Elt F) := Function.update (Y12 m c) main_v47 (o13 m c)

theorem Y1_self (c : Dev nD) : Y1 m c main_v0 = o1 m c := Function.update_self ..
theorem Y1_of_ne (c : Dev nD) (b : Ref sig .tc) (h : b ≠ main_v0) : Y1 m c b = Y0 m c b :=
  Function.update_of_ne (StableHlo.devRef_ne_of_ne h) ..
theorem Y3_self (c : Dev nD) : Y3 m c main_v10 = o3 m c := Function.update_self ..
theorem Y3_of_ne (c : Dev nD) (b : Ref sig .tc) (h : b ≠ main_v10) : Y3 m c b = Y2 m c b :=
  Function.update_of_ne (StableHlo.devRef_ne_of_ne h) ..
theorem Y5_self (c : Dev nD) : Y5 m c main_v16 = o5 m c := Function.update_self ..
theorem Y5_of_ne (c : Dev nD) (b : Ref sig .tc) (h : b ≠ main_v16) : Y5 m c b = Y4 m c b :=
  Function.update_of_ne (StableHlo.devRef_ne_of_ne h) ..
theorem Y7_self (c : Dev nD) : Y7 m c main_v26 = o7 m c := Function.update_self ..
theorem Y7_of_ne (c : Dev nD) (b : Ref sig .tc) (h : b ≠ main_v26) : Y7 m c b = Y6 m c b :=
  Function.update_of_ne (StableHlo.devRef_ne_of_ne h) ..
theorem Y9_self (c : Dev nD) : Y9 m c main_v32 = o9 m c := Function.update_self ..
theorem Y9_of_ne (c : Dev nD) (b : Ref sig .tc) (h : b ≠ main_v32) : Y9 m c b = Y8 m c b :=
  Function.update_of_ne (StableHlo.devRef_ne_of_ne h) ..
theorem Y11_self (c : Dev nD) : Y11 m c main_v42 = o11 m c := Function.update_self ..
theorem Y11_of_ne (c : Dev nD) (b : Ref sig .tc) (h : b ≠ main_v42) : Y11 m c b = Y10 m c b :=
  Function.update_of_ne (StableHlo.devRef_ne_of_ne h) ..
theorem Y13_self (c : Dev nD) : Y13 m c main_v47 = o13 m c := Function.update_self ..

def outsH : Outs (F := F) := fun J r c => match J with
  | 1 => Y1 m c r | 3 => Y3 m c r | 5 => Y5 m c r | 7 => Y7 m c r | 9 => Y9 m c r | 11 => Y11 m c r | 13 => Y13 m c r
  | _ => Y0 m c r

/-- Updating at b by the value an update of an equal valuation has at b is that update. -/
theorem upd_eq {V Y : Valuation τ sig (Elt F)} (h : V = Y) (b : DevRef τ sig) (o : b.ty.Contents (Elt F)) :
    Function.update V b (Function.update Y b o b) = Function.update Y b o := by rw [h, Function.update_self]

theorem V1_eq (c : Dev nD) : V1 m (outsH m) c = Y1 m c := upd_eq rfl ..
theorem V3_eq (c : Dev nD) : V3 m (outsH m) c = Y3 m c := upd_eq (congrArg (StableHlo.after hostOps1) (V1_eq m c)) ..
theorem V5_eq (c : Dev nD) : V5 m (outsH m) c = Y5 m c := upd_eq (congrArg (StableHlo.after hostOps2) (V3_eq m c)) ..
theorem V7_eq (c : Dev nD) : V7 m (outsH m) c = Y7 m c := upd_eq (congrArg (StableHlo.after hostOps3) (V5_eq m c)) ..
theorem V9_eq (c : Dev nD) : V9 m (outsH m) c = Y9 m c := upd_eq (congrArg (StableHlo.after hostOps4) (V7_eq m c)) ..
theorem V11_eq (c : Dev nD) : V11 m (outsH m) c = Y11 m c := upd_eq (congrArg (StableHlo.after hostOps5) (V9_eq m c)) ..
theorem V13_eq (c : Dev nD) : V13 m (outsH m) c = Y13 m c := upd_eq (congrArg (StableHlo.after hostOps6) (V11_eq m c)) ..

end Cert.KernelIdeal.GenH

end
-- ==== Proof.KI.Regs.lean ====
import proofs.«408255_j5076651344425_4_alg».proof.Proof.KI.Chain
import proofs.«408255_j5076651344425_4_alg».proof.Proof.LibRegionSeg
import Idealize.ShloMosaic.Lib.Ring
import Idealize.ShloMosaic.Lib.Tactic

set_option maxRecDepth 16384

noncomputable section

namespace Cert.KernelIdeal.GenH

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0

def pdats : (p : Fin 7) → (c : Dev nD) → Dat τ (Elt F) Unit ℕ (UR sig nD τ) ℕ (cfgs p) c
  | ⟨0, _⟩ => dat0 (atTc (Y0 m))
  | ⟨1, _⟩ => dat1 (atTc (Y2 m))
  | ⟨2, _⟩ => dat2 (atTc (Y4 m))
  | ⟨3, _⟩ => dat3 (atTc (Y6 m))
  | ⟨4, _⟩ => dat4 (atTc (Y8 m))
  | ⟨5, _⟩ => dat5 (atTc (Y10 m))
  | ⟨6, _⟩ => dat6 (atTc (Y12 m))

abbrev R (c : Dev nD) : sProp 𝕄 := iprop((∃ r, prngReg c r) ∗ ∃ W, owes (c : Thread nD τ) (0 : CellTallies nD τ sig Unit) W)
abbrev E : Fin 8 → Dev nD → sProp 𝕄 := fun _ c => R c

def reg0 : Pipeline.RegionSeg (pcfgs (F := F)) adm (pdats m) () defs₀ 𝒱₀ L lv 0 :=
  .ofUpdate launch0 2 (by decide) (Y0 m) (Y1 m) (fun _ => rfl) (fun c => (body_obligation0 _ c).loose)
    (fun _ _ => rfl) (fun _ _ => rfl) (fun _ _ => trivial) (A_eq0 _) (fun _ => .rfl) fun _ => .rfl
def reg1 : Pipeline.RegionSeg (pcfgs (F := F)) adm (pdats m) () defs₀ 𝒱₀ L lv 1 :=
  .ofUpdate launch1 6 (by decide) (Y2 m) (Y3 m) (fun _ => rfl) (fun c => (body_obligation1 _ c).loose)
    (fun _ _ => rfl) (fun _ _ => rfl) (fun _ _ => trivial) (A_eq1 _) (fun _ => .rfl) fun _ => .rfl
def reg2 : Pipeline.RegionSeg (pcfgs (F := F)) adm (pdats m) () defs₀ 𝒱₀ L lv 2 :=
  .ofUpdate launch2 3 (by decide) (Y4 m) (Y5 m) (fun _ => rfl) (fun c => (body_obligation2 _ c).loose)
    (fun _ _ => rfl) (fun _ _ => rfl) (fun _ _ => trivial) (A_eq2 _) (fun _ => .rfl) fun _ => .rfl
def reg3 : Pipeline.RegionSeg (pcfgs (F := F)) adm (pdats m) () defs₀ 𝒱₀ L lv 3 :=
  .ofUpdate launch3 6 (by decide) (Y6 m) (Y7 m) (fun _ => rfl) (fun c => (body_obligation3 _ c).loose)
    (fun _ _ => rfl) (fun _ _ => rfl) (fun _ _ => trivial) (A_eq3 _) (fun _ => .rfl) fun _ => .rfl
def reg4 : Pipeline.RegionSeg (pcfgs (F := F)) adm (pdats m) () defs₀ 𝒱₀ L lv 4 :=
  .ofUpdate launch4 3 (by decide) (Y8 m) (Y9 m) (fun _ => rfl) (fun c => (body_obligation4 _ c).loose)
    (fun _ _ => rfl) (fun _ _ => rfl) (fun _ _ => trivial) (A_eq4 _) (fun _ => .rfl) fun _ => .rfl
def reg5 : Pipeline.RegionSeg (pcfgs (F := F)) adm (pdats m) () defs₀ 𝒱₀ L lv 5 :=
  .ofUpdate launch5 6 (by decide) (Y10 m) (Y11 m) (fun _ => rfl) (fun c => (body_obligation5 _ c).loose)
    (fun _ _ => rfl) (fun _ _ => rfl) (fun _ _ => trivial) (A_eq5 _) (fun _ => .rfl) fun _ => .rfl
def reg6 : Pipeline.RegionSeg (pcfgs (F := F)) adm (pdats m) () defs₀ 𝒱₀ L lv 6 :=
  .ofUpdate launch6 3 (by decide) (Y12 m) (Y13 m) (fun _ => rfl) (fun c => (body_obligation6 _ c).loose)
    (fun _ _ => rfl) (fun _ _ => rfl) (fun _ _ => trivial) (A_eq6 _) (hin6 _) (hout6 _)

end Cert.KernelIdeal.GenH

end
-- ==== Proof.KI.Frame.lean ====
import proofs.«408255_j5076651344425_4_alg».proof.Proof.KI.Regs

set_option maxRecDepth 16384

noncomputable section

namespace Cert.KernelIdeal.GenH

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev T (c : Dev nD) (Y : Valuation τ sig (Elt F)) : sProp 𝕄 := iprop(StableHlo.held (c : Thread nD τ) (Pipeline.ucRefs τ sig) Y ∗ R c)

theorem toV {V Y : Valuation τ sig (Elt F)} (h : V = Y) (c : Dev nD) : T c Y ⊢ T c V := by rw [h]
theorem ofV (ops : List (HloOp τ sig (Elt F))) {V Y : Valuation τ sig (Elt F)} (h : V = Y) (c : Dev nD) :
    T c (StableHlo.after ops V) ⊢ T c (StableHlo.after ops Y) := by rw [h]

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = Y13 m c b) := by
  refine Pipeline.θ_run_regions_kit_dev (pcfgs (F := F)) adm (pdats m) () cellOf_inj emb₁ defs₀ 𝒱₀ L lv m ρ main
    (segs m (outsH m) 𝒱₀ L lv E () (pdats m) (reg0 m) (reg1 m) (reg2 m) (reg3 m) (reg4 m) (reg5 m) (reg6 m))
    (fun c Q => by rewrite [main_chain c, Seg.run_eq_chain]; exact .rfl)
    (fun c => by simp only [segs, Seg.pipes_host, Seg.pipes_region, Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · exact .rfl
      iempintro)
    (T₀ := fun c => T c (Y0 m c))
    (Tₙ := fun c => iprop(StableHlo.held (c : Thread nD τ) (Pipeline.ucRefs τ sig) (Y13 m c) ∗ ∃ r, prngReg c r))
    (hch := fun c => ⟨.rfl,
      toV (V1_eq m c) c, ofV _ (V1_eq m c) c,
      toV (V3_eq m c) c, ofV _ (V3_eq m c) c,
      toV (V5_eq m c) c, ofV _ (V5_eq m c) c,
      toV (V7_eq m c) c, ofV _ (V7_eq m c) c,
      toV (V9_eq m c) c, ofV _ (V9_eq m c) c,
      toV (V11_eq m c) c, ofV _ (V11_eq m c) c,
      ?_⟩)
    (hinit := ?_)
    (QY := fun c s => ∀ b ∈ Pipeline.ucRefs τ sig, s.mem (((c : Thread nD τ)).1, b) = Y13 m c b)
    (hfin := fun c s' => ?_) (hQ := fun s h c => h c)
  · show T c (Y13 m c) ⊢ _
    iintro ⟨Hh, Hp, HO⟩
    isplitl [Hh Hp]
    · isplitl [Hh] <;> iassumption
    iexact HO
  · refine Pipeline.initEach L lv fun c => ?_
    rw [show unscopedBufs c (fun b => m ((c : Thread nD τ).loc b)) = _ from Pipeline.unscopedBufs_held c (Y0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (Y13 m c) s')
    isplitl [Hh] <;> iassumption

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem kept {r : PUnit × MemSt nD τ sig (Elt F)} (h : ∀ c : Dev nD, ∀ b ∈ Pipeline.ucRefs τ sig, r.2.mem (((c : Thread nD τ)).1, b) = Y13 m c b)
    (c : Dev nD) : args.Forall fun b => r.2.mem ((c.tc : Thread nD τ).loc b) = m ((c.tc : Thread nD τ).loc b) :=
  have k (b : Ref sig .tc) (hb : ¬ (Proc.devRef .tc b : DevRef τ sig).isScoped) (e : V13 m (outsH m) c b = m ((c.tc : Thread nD τ).loc b)) :
      r.2.mem ((c.tc : Thread nD τ).loc b) = m ((c.tc : Thread nD τ).loc b) :=
    (h c _ (mem_uc b hb)).trans ((congrFun (V13_eq m c).symm _).trans e)
  ⟨k main_arg0 (by decide) (V13_main_arg0 m _ c),
    k main_arg1 (by decide) (V13_main_arg1 m _ c),
    k main_arg2 (by decide) (V13_main_arg2 m _ c),
    k main_arg3 (by decide) (V13_main_arg3 m _ c),
    k main_arg4 (by decide) (V13_main_arg4 m _ c),
    k main_arg5 (by decide) (V13_main_arg5 m _ c),
    k main_arg6 (by decide) (V13_main_arg6 m _ c),
    k main_arg7 (by decide) (V13_main_arg7 m _ c),
    k main_arg8 (by decide) (V13_main_arg8 m _ c),
    k main_arg9 (by decide) (V13_main_arg9 m _ c),
    k main_arg10 (by decide) (V13_main_arg10 m _ c),
    k main_arg11 (by decide) (V13_main_arg11 m _ c),
    k main_arg12 (by decide) (V13_main_arg12 m _ c),
    k main_arg13 (by decide) (V13_main_arg13 m _ c),
    k main_arg14 (by decide) (V13_main_arg14 m _ c),
    k main_arg15 (by decide) (V13_main_arg15 m _ c),
    k main_arg16 (by decide) (V13_main_arg16 m _ c),
    k main_arg17 (by decide) (V13_main_arg17 m _ c),
    k main_arg18 (by decide) (V13_main_arg18 m _ c),
    k main_arg19 (by decide) (V13_main_arg19 m _ c),
    k main_arg20 (by decide) (V13_main_arg20 m _ c),
    k main_arg21 (by decide) (V13_main_arg21 m _ c),
    k main_arg22 (by decide) (V13_main_arg22 m _ c)⟩

theorem frame : θ_run defs (onTc (τ := τ) (main (F := F))) ⟨m, fun _ => 0, ρ⟩ (fun r => ∀ c : Dev nD,
    args.Forall fun b => r.2.mem ((c.tc : Thread nD τ).loc b) = m ((c.tc : Thread nD τ).loc b)) :=
  (θ_run defs _ _).mono (fun _ h => kept m h) (run_all m ρ)

end Cert.KernelIdeal.GenH

end
-- ==== Proof.KI.Result.lean ====
import proofs.«408255_j5076651344425_4_alg».proof.Proof.KI.Frame

noncomputable section

namespace Cert.KernelIdeal.GenH

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem run_result : θ_run defs (onTc (τ := τ) (main (F := F))) ⟨m, fun _ => 0, ρ⟩ (fun r => ∀ c : Dev nD,
    r.2.mem ((c.tc : Thread nD τ).loc main_v47) = o13 m c
      ∧ args.Forall fun b => r.2.mem ((c.tc : Thread nD τ).loc b) = m ((c.tc : Thread nD τ).loc b)) :=
  (θ_run defs _ _).mono (fun _ h c => ⟨(h c _ (mem_uc main_v47 (by decide))).trans (Y13_self m c), kept m h c⟩) (run_all m ρ)

end Cert.KernelIdeal.GenH

end
-- ==== Proof.KI.Host.lean ====
import proofs.«408255_j5076651344425_4_alg».proof.Proof.KI.Chain
import proofs.«408255_j5076651344425_4_alg».proof.Proof.Gen.ReferenceIdeal.Read
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.ValH

open Cert.KernelIdeal Cert.KernelIdeal.Gen Cert.KernelIdeal.GenH
open Idealize.ShloMosaic Idealize.ShloMosaic.TcCoe Idealize.SL.Sem Idealize.ShloMosaic.ValueIdx Idealize.ShloMosaic.StableHlo

variable (m : (ℓ : Loc nD τ sig) → Buf (Elt Ideal) ℓ)

abbrev a0 (c : Dev nD) := Y0 m c main_arg0
abbrev a1 (c : Dev nD) := Y0 m c main_arg1
abbrev a2 (c : Dev nD) := Y0 m c main_arg2
abbrev a3 (c : Dev nD) := Y0 m c main_arg3
abbrev a4 (c : Dev nD) := Y0 m c main_arg4
abbrev a5 (c : Dev nD) := Y0 m c main_arg5
abbrev a6 (c : Dev nD) := Y0 m c main_arg6
abbrev a7 (c : Dev nD) := Y0 m c main_arg7
abbrev a8 (c : Dev nD) := Y0 m c main_arg8
abbrev a9 (c : Dev nD) := Y0 m c main_arg9
abbrev a10 (c : Dev nD) := Y0 m c main_arg10
abbrev a11 (c : Dev nD) := Y0 m c main_arg11
abbrev a12 (c : Dev nD) := Y0 m c main_arg12
abbrev a13 (c : Dev nD) := Y0 m c main_arg13
abbrev a14 (c : Dev nD) := Y0 m c main_arg14
abbrev a15 (c : Dev nD) := Y0 m c main_arg15
abbrev a16 (c : Dev nD) := Y0 m c main_arg16
abbrev a17 (c : Dev nD) := Y0 m c main_arg17
abbrev a18 (c : Dev nD) := Y0 m c main_arg18
abbrev a19 (c : Dev nD) := Y0 m c main_arg19
abbrev a20 (c : Dev nD) := Y0 m c main_arg20
abbrev a21 (c : Dev nD) := Y0 m c main_arg21
abbrev a22 (c : Dev nD) := Y0 m c main_arg22

section
variable {Y Y' : Valuation τ sig (Elt Ideal)} {L : List (Ref sig .tc)} (h : ∀ r : Ref sig .tc, r ∉ L → Y r = Y' r)
include h

-- A line of host operations changes nothing outside a list W that holds every reference it writes.
theorem kept_after {W : List (Ref sig .tc)} (ops : List (HloOp τ sig (Elt Ideal)))
    (hW : ops.Forall fun op => op.writes ⊆ (W.map (Proc.devRef (τ := τ) .tc)).toFinset) (r : Ref sig .tc) (hr : r ∉ W ++ L) :
    StableHlo.after ops Y r = Y' r :=
  (StableHlo.after_of_writes_sub ops Y hW fun hm => hr (List.mem_append_left _ hm)).trans (h r fun hm => hr (List.mem_append_right _ hm))

-- An update at b changes nothing but b.
theorem kept_update (b : Ref sig .tc) (o : (Proc.devRef (τ := τ) .tc b).ty.Contents (Elt Ideal)) (r : Ref sig .tc) (hr : r ∉ b :: L) :
    Function.update Y b o r = Y' r :=
  (Function.update_of_ne (StableHlo.devRef_ne_of_ne (List.ne_of_not_mem_cons hr)) ..).trans (h r (List.not_mem_of_not_mem_cons hr))

end

abbrev W1 : List (Ref sig .tc) := main_v0 :: []
abbrev W2 : List (Ref sig .tc) := hostOps1_W ++ W1
abbrev W3 : List (Ref sig .tc) := main_v10 :: W2
abbrev W4 : List (Ref sig .tc) := hostOps2_W ++ W3
abbrev W5 : List (Ref sig .tc) := main_v16 :: W4
abbrev W6 : List (Ref sig .tc) := hostOps3_W ++ W5
abbrev W7 : List (Ref sig .tc) := main_v26 :: W6
abbrev W8 : List (Ref sig .tc) := hostOps4_W ++ W7
abbrev W9 : List (Ref sig .tc) := main_v32 :: W8
abbrev W10 : List (Ref sig .tc) := hostOps5_W ++ W9
abbrev W11 : List (Ref sig .tc) := main_v42 :: W10
abbrev W12 : List (Ref sig .tc) := hostOps6_W ++ W11

theorem Y1_kept (c : Dev nD) : ∀ r : Ref sig .tc, r ∉ W1 → Y1 m c r = Y0 m c r := kept_update (fun _ _ => rfl) _ _
theorem Y2_kept (c : Dev nD) : ∀ r : Ref sig .tc, r ∉ W2 → Y2 m c r = Y0 m c r := kept_after (Y1_kept m c) hostOps1 hostOps1_writes
theorem Y3_kept (c : Dev nD) : ∀ r : Ref sig .tc, r ∉ W3 → Y3 m c r = Y0 m c r := kept_update (Y2_kept m c) _ _
theorem Y4_kept (c : Dev nD) : ∀ r : Ref sig .tc, r ∉ W4 → Y4 m c r = Y0 m c r := kept_after (Y3_kept m c) hostOps2 hostOps2_writes
theorem Y5_kept (c : Dev nD) : ∀ r : Ref sig .tc, r ∉ W5 → Y5 m c r = Y0 m c r := kept_update (Y4_kept m c) _ _
theorem Y6_kept (c : Dev nD) : ∀ r : Ref sig .tc, r ∉ W6 → Y6 m c r = Y0 m c r := kept_after (Y5_kept m c) hostOps3 hostOps3_writes
theorem Y7_kept (c : Dev nD) : ∀ r : Ref sig .tc, r ∉ W7 → Y7 m c r = Y0 m c r := kept_update (Y6_kept m c) _ _
theorem Y8_kept (c : Dev nD) : ∀ r : Ref sig .tc, r ∉ W8 → Y8 m c r = Y0 m c r := kept_after (Y7_kept m c) hostOps4 hostOps4_writes
theorem Y9_kept (c : Dev nD) : ∀ r : Ref sig .tc, r ∉ W9 → Y9 m c r = Y0 m c r := kept_update (Y8_kept m c) _ _
theorem Y10_kept (c : Dev nD) : ∀ r : Ref sig .tc, r ∉ W10 → Y10 m c r = Y0 m c r := kept_after (Y9_kept m c) hostOps5 hostOps5_writes
theorem Y11_kept (c : Dev nD) : ∀ r : Ref sig .tc, r ∉ W11 → Y11 m c r = Y0 m c r := kept_update (Y10_kept m c) _ _
theorem Y12_kept (c : Dev nD) : ∀ r : Ref sig .tc, r ∉ W12 → Y12 m c r = Y0 m c r := kept_after (Y11_kept m c) hostOps6 hostOps6_writes

-- A vector cast to one row reads, at column q of that row, its entry q.
theorem rowCast_at {α : Type} {n : Nat} {Yv : (⟨2, ![1, n]⟩ : Shape).Idx → α} {x : (⟨1, ![n]⟩ : Shape).Idx → α}
    (h : (⟨1, ![n]⟩ : Shape).ShapeCasts ⟨2, ![1, n]⟩) (e : Yv = shapeCast ⟨2, ![1, n]⟩ x h) (q : Fin n) : Yv (ix2 (0 : Fin 1) q) = x (ix1 q) :=
  e ▸ shapeCast_apply x h (ix2 (0 : Fin 1) q) (ix1 q) (by
    rw [Shape.rowMajor_val_two, Shape.rowMajor_val_one]; show q.val = 0 * n + q.val; omega)

theorem Y2_v8 (c : Dev nD) (q : Fin 64) :
    (Y2 m c main_v8 : S1x64.Idx → EReal) (ix2 (0 : Fin 1) q) = a12 m c (ix1 q) :=
  rowCast_at shapeCasts_S64_S1x64 (by
    show StableHlo.after hostOps1 (Y1 m c) (Proc.devRef .tc main_v8) = _
    after_results
    rw [Y1_kept m c main_arg12 (by decide)]
    rfl) q

theorem Y2_v9 (c : Dev nD) (q : Fin 64) :
    (Y2 m c main_v9 : S1x64.Idx → EReal) (ix2 (0 : Fin 1) q) = a14 m c (ix1 q) :=
  rowCast_at shapeCasts_S64_S1x64 (by
    show StableHlo.after hostOps1 (Y1 m c) (Proc.devRef .tc main_v9) = _
    after_results
    rw [Y1_kept m c main_arg14 (by decide)]
    rfl) q

theorem Y4_v15 (c : Dev nD) (q : Fin 64) :
    (Y4 m c main_v15 : S1x64.Idx → EReal) (ix2 (0 : Fin 1) q) = a6 m c (ix1 q) :=
  rowCast_at shapeCasts_S64_S1x64 (by
    show StableHlo.after hostOps2 (Y3 m c) (Proc.devRef .tc main_v15) = _
    after_results
    rw [Y3_kept m c main_arg6 (by decide)]
    rfl) q

theorem Y6_v24 (c : Dev nD) (q : Fin 64) :
    (Y6 m c main_v24 : S1x64.Idx → EReal) (ix2 (0 : Fin 1) q) = a16 m c (ix1 q) :=
  rowCast_at shapeCasts_S64_S1x64 (by
    show StableHlo.after hostOps3 (Y5 m c) (Proc.devRef .tc main_v24) = _
    after_results
    rw [Y5_kept m c main_arg16 (by decide)]
    rfl) q

theorem Y6_v25 (c : Dev nD) (q : Fin 64) :
    (Y6 m c main_v25 : S1x64.Idx → EReal) (ix2 (0 : Fin 1) q) = a18 m c (ix1 q) :=
  rowCast_at shapeCasts_S64_S1x64 (by
    show StableHlo.after hostOps3 (Y5 m c) (Proc.devRef .tc main_v25) = _
    after_results
    rw [Y5_kept m c main_arg18 (by decide)]
    rfl) q

theorem Y8_v31 (c : Dev nD) (q : Fin 64) :
    (Y8 m c main_v31 : S1x64.Idx → EReal) (ix2 (0 : Fin 1) q) = a8 m c (ix1 q) :=
  rowCast_at shapeCasts_S64_S1x64 (by
    show StableHlo.after hostOps4 (Y7 m c) (Proc.devRef .tc main_v31) = _
    after_results
    rw [Y7_kept m c main_arg8 (by decide)]
    rfl) q

theorem Y10_v40 (c : Dev nD) (q : Fin 1) :
    (Y10 m c main_v40 : S1x1.Idx → EReal) (ix2 (0 : Fin 1) q) = a20 m c (ix1 q) :=
  rowCast_at shapeCasts_S1_S1x1 (by
    show StableHlo.after hostOps5 (Y9 m c) (Proc.devRef .tc main_v40) = _
    after_results
    rw [Y9_kept m c main_arg20 (by decide)]
    rfl) q

theorem Y10_v41 (c : Dev nD) (q : Fin 1) :
    (Y10 m c main_v41 : S1x1.Idx → EReal) (ix2 (0 : Fin 1) q) = a22 m c (ix1 q) :=
  rowCast_at shapeCasts_S1_S1x1 (by
    show StableHlo.after hostOps5 (Y9 m c) (Proc.devRef .tc main_v41) = _
    after_results
    rw [Y9_kept m c main_arg22 (by decide)]
    rfl) q

theorem Y12_v46 (c : Dev nD) (q : Fin 1) :
    (Y12 m c main_v46 : S1x1.Idx → EReal) (ix2 (0 : Fin 1) q) = a10 m c (ix1 q) :=
  rowCast_at shapeCasts_S1_S1x1 (by
    show StableHlo.after hostOps6 (Y11 m c) (Proc.devRef .tc main_v46) = _
    after_results
    rw [Y11_kept m c main_arg10 (by decide)]
    rfl) q

theorem Y8_v30 (c : Dev nD) :
    (Y8 m c main_v30 : S65536x64.Idx → EReal)
      = Host.scatterAdd (F := Ideal) (φ := .f32) Cert.ReferenceIdeal.scatter_S65536x64_S1048576x1_S1048576x64_1_0_0_1 (Cert.ReferenceIdeal.Read.val_main_v52 (F := Ideal)) (Cert.ReferenceIdeal.Read.val_main_v53 (F := Ideal) (a3 m c))
          (o7 m c : S1048576x64.Idx → EReal) := by
  show StableHlo.after hostOps4 (Y7 m c) (Proc.devRef .tc main_v30) = _
  after_results
  rw [Y7_self, Y7_kept m c main_arg3 (by decide)]
  rfl

end Cert.KernelIdeal.ValH

end
-- ==== Proof.LibPlainRows.lean ====
import Idealize.ShloMosaic.Lib.StackMember
import Idealize.ShloMosaic.Lib.ValueLayout

noncomputable section

namespace Idealize.ShloMosaic.PlainRows

open Idealize.ShloMosaic Idealize.ShloMosaic.ValueIdx

variable {M m k n : Nat} {φ₁ φ₂ : FTy}

-- A block product read at j is the whole product read at i: same column, and the block's rows are the array's rows from row o on.
theorem matmul_rowBlock (prec prec' : Option ContractPrecision)
    (A : FVec Ideal ⟨2, ![m, k]⟩ φ₁) (A' : FVec Ideal ⟨2, ![M, k]⟩ φ₁) (B B' : FVec Ideal ⟨2, ![k, n]⟩ φ₂) (o : Nat)
    (hA : ∀ (y : (⟨2, ![m, k]⟩ : Shape).Idx) (x : (⟨2, ![M, k]⟩ : Shape).Idx), (x 0).val = o + (y 0).val → (x 1).val = (y 1).val → A y = A' x)
    (hB : B = B') (j : (⟨2, ![m, n]⟩ : Shape).Idx) (i : (⟨2, ![M, n]⟩ : Shape).Idx)
    (h0 : (i 0).val = o + (j 0).val) (h1 : (i 1).val = (j 1).val) :
    matmul (DotDims.plain m k n) prec A B (constant ⟨2, ![m, n]⟩ .f32 0x00000000#32) j
      = Host.dotGeneral (DotDims.plain M k n) prec' A' B' i := by
  subst hB
  obtain ⟨p, q, rfl⟩ : ∃ (p : Fin m) (q : Fin n), j = ix2 p q := ⟨j 0, j 1, eq_ix2 j⟩
  obtain ⟨r, s, rfl⟩ : ∃ (r : Fin M) (s : Fin n), i = ix2 r s := ⟨i 0, i 1, eq_ix2 i⟩
  obtain rfl : s = q := Fin.ext h1
  rw [matmul_zero_eq_dotGeneral, StackMember.dotGeneral_plain_apply, StackMember.dotGeneral_plain_apply]
  exact Finset.sum_congr rfl fun c _ => congrArg (· * B (ix2 c s)) (hA (ix2 p c) (ix2 r c) h0 rfl)

-- The same with the left operand rectified after a bias row is added: entry by entry both sides are max (x + b) 0.
theorem relu_matmul_rowBlock (prec prec' : Option ContractPrecision)
    (x : FVec Ideal ⟨2, ![m, k]⟩ .f32) (b : FVec Ideal ⟨2, ![1, k]⟩ .f32) (X B Z : FVec Ideal ⟨2, ![M, k]⟩ .f32)
    (W W' : FVec Ideal ⟨2, ![k, n]⟩ φ₂) (c1 : (⟨2, ![m, k]⟩ : Shape).ShapeCasts ⟨2, ![m, k]⟩)
    (c2 : (⟨2, ![1, k]⟩ : Shape).ShapeCasts ⟨2, ![1, k]⟩) (cb : (⟨2, ![1, k]⟩ : Shape).Broadcasts ⟨2, ![m, k]⟩) (o : Nat)
    (hx : ∀ (y : (⟨2, ![m, k]⟩ : Shape).Idx) (x' : (⟨2, ![M, k]⟩ : Shape).Idx), (x' 0).val = o + (y 0).val → (x' 1).val = (y 1).val → x y = X x')
    (hb : ∀ (r : Fin M) (c : Fin k), b (ix2 (0 : Fin 1) c) = B (ix2 r c)) (hz : ∀ i, Z i = Ideal.ofBits .f32 0x00000000#32)
    (hW : W = W') (j : (⟨2, ![m, n]⟩ : Shape).Idx) (i : (⟨2, ![M, n]⟩ : Shape).Idx)
    (h0 : (i 0).val = o + (j 0).val) (h1 : (i 1).val = (j 1).val) :
    matmul (DotDims.plain m k n) prec (maximumf (addf (shapeCast ⟨2, ![m, k]⟩ x c1) (broadcastTo ⟨2, ![m, k]⟩ (shapeCast ⟨2, ![1, k]⟩ b c2) cb))
        (broadcast ⟨2, ![m, k]⟩ (Scalar.ofBits (F := Ideal) .f32 0x00000000#32))) W (constant ⟨2, ![m, n]⟩ .f32 0x00000000#32) j
      = Host.dotGeneral (DotDims.plain M k n) prec' (maximumf (addf X B) Z) W' i :=
  matmul_rowBlock prec prec' _ _ W W' o (fun y x' g0 g1 => by
    obtain ⟨p, c, rfl⟩ : ∃ (p : Fin m) (c : Fin k), y = ix2 p c := ⟨y 0, y 1, eq_ix2 y⟩
    obtain ⟨r, s, rfl⟩ : ∃ (r : Fin M) (s : Fin k), x' = ix2 r s := ⟨x' 0, x' 1, eq_ix2 x'⟩
    obtain rfl : s = c := Fin.ext g1
    rw [maximumf_apply, maximumf_apply, addf_apply, addf_apply, shapeCast_self, shapeCast_self, broadcastTo_1b_ab_apply,
      hx (ix2 p s) (ix2 r s) g0 rfl, hb r s, hz]
    rfl) hW j i h0 h1

-- A vector broadcast into one row and that row down m rows reads, at (p, q), the vector's entry q.
theorem rowBroadcast_apply {α : Type} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) fun a => ?_
  match a with
  | ⟨0, _⟩ =>
    show q.val = if n = 1 then 0 else q.val
    split
    · have := q.isLt; omega
    · rfl

-- Where the block index is zero on every axis, a block's element sits in the array at its own coordinates.
theorem whole_emb {sig : RefSig} {G : Pipeline.Grid} (w : Pipeline.Window sig G) (t : Fin G.N) (h : ∀ a, w.index t a = 0)
    (y : (w.xblock (G.coords t)).Idx) (x : w.shape.Idx) (hx : ∀ a, (x a).val = (y a).val) : (w.rect t).emb y = x :=
  funext fun a => Fin.ext ((w.rect_emb_val_of_index_zero t a (h a) y).trans (hx a).symm)

-- Row r of an array lies in the block of m rows numbered r / m, every column in the block of all columns.
theorem rows_cover (hm : 0 < m) (i : (⟨2, ![M, n]⟩ : Shape).Idx) (I : Fin 2 → Nat) (h0 : I 0 = (i 0).val / m) (h1 : I 1 = 0) :
    ∀ a : Fin 2, I a * ![m, n] a ≤ (i a).val ∧ (i a).val < I a * ![m, n] a + ![m, n] a :=
  Fin.forall_fin_two.mpr ⟨by
    show I 0 * m ≤ (i 0).val ∧ (i 0).val < I 0 * m + m
    rw [h0]; exact ⟨Nat.div_mul_le_self _ _, Nat.lt_div_mul_add hm⟩, by
    show I 1 * n ≤ (i 1).val ∧ (i 1).val < I 1 * n + n
    rw [h1, Nat.zero_mul, Nat.zero_add]; exact ⟨Nat.zero_le _, (i 1).isLt⟩⟩

end Idealize.ShloMosaic.PlainRows

end
-- ==== Proof.KI.ValNode.lean ====
import proofs.«408255_j5076651344425_4_alg».proof.Proof.KI.RegA0
import proofs.«408255_j5076651344425_4_alg».proof.Proof.KI.RegA2
import proofs.«408255_j5076651344425_4_alg».proof.Proof.KI.RegA4
import proofs.«408255_j5076651344425_4_alg».proof.Proof.LibPlainRows
import proofs.«408255_j5076651344425_4_alg».proof.Proof.Gen.ReferenceIdeal.Read
import Idealize.ShloMosaic.Lib.Pipeline.Value
import Idealize.ShloMosaic.Lib.ValueIdx
import Idealize.ShloMosaic.Lib.Tactic

set_option maxRecDepth 16384

noncomputable section

namespace Cert.KernelIdeal.ValH

open Cert.KernelIdeal Cert.KernelIdeal.Gen Cert.KernelIdeal.GenH
open Idealize.ShloMosaic Idealize.ShloMosaic.TcCoe Idealize.SL.Sem Idealize.ShloMosaic.ValueIdx
open Idealize.ShloMosaic.Pipeline (Dat)
open scoped BigOperators

theorem hzN : (![0, 0] : Fin 2 → Nat) = fun _ => 0 := funext fun a => by fin_cases a <;> rfl

section
variable (V : (c : Dev nD) → (b : Ref sig .tc) → Buf (Elt Ideal) ((c : Thread nD τ).loc b))

theorem idx0 : ∀ t : Fin cfg0.N, win0_0.index t (0 : Fin 2) = t.val ∧ win0_0.index t (1 : Fin 2) = 0
    ∧ (∀ a : Fin 2, win0_1.index t a = 0)
    ∧ win0_2.index t (0 : Fin 2) = t.val ∧ win0_2.index t (1 : Fin 2) = 0 :=
  (by decide +kernel : ∀ t : Fin grid0.N, _)

-- Block t of the output is the reference's product on rows 8192 t ≤ r < 8192 (t + 1).
theorem flushed0_eq (c : Dev nD) (t : Fin cfg0.N) :
    (dat0 (F := Ideal) V c).flushed 2 t
      = ((cfg0.win 2).blk t).view.read (Elt Ideal) (Host.dotGeneral (F := Ideal) (φ₁ := .f32) (φ₂ := .f32)
          Cert.ReferenceIdeal.dot_S65536x32_S32x64_S65536x64_1_0_0_1_n_n none (V c main_arg0) (V c main_arg5)) := by
  show (cfg0.win 2).cut (grid0.coords t) ((dat0 (F := Ideal) V c).after 2 t) = _
  rw [after0_2]
  unfold out0_2
  rw [View.canon_unit_zero hzN]
  simp only [View.ld_unit_zero (S := S8192x32) hzN, View.ld_unit_zero (S := S32x64) hzN]
  obtain ⟨e0, e1, e2, e4, e5⟩ := idx0 t
  funext j
  exact PlainRows.matmul_rowBlock none none _ _ _ _ (win0_2.index t 0 * 8192)
    (fun y x g0 g1 => congrArg (V c main_arg0) (Shape.idx_ext₂
      ((win0_0.rect_emb_val t y 0).trans ((congrArg (· * 8192 + (y 0).val) (e0.trans e4.symm)).trans g0.symm))
      ((win0_0.rect_emb_val_of_index_zero t 1 e1 y).trans g1.symm)))
    (funext fun y => congrArg (V c main_arg5) (PlainRows.whole_emb win0_1 t e2 y y fun _ => rfl))
    j (((cfg0.win 2).blk t).view.emb j) (win0_2.rect_emb_val t j 0) (win0_2.rect_emb_val_of_index_zero t 1 e5 j)

theorem cover0 (i : S65536x64.Idx) : ∃ t : Fin cfg0.N, (cfg0.win 2).flush t = true ∧ i ∈ ((cfg0.win 2).blk t).view.set := by
  have hi : (i 0).val < 65536 := (i 0).isLt
  have hN : cfg0.N = 8 := N_0
  obtain ⟨t, ht⟩ : ∃ t : Fin cfg0.N, t.val = (i 0).val / 8192 := ⟨⟨_, by rw [hN]; omega⟩, rfl⟩
  obtain ⟨-, -, -, e4, e5⟩ := idx0 t
  refine ⟨t, flush0_2 t, ?_⟩
  show i ∈ ((View.whole main_v0).slice (win0_2.rect t)).set
  rw [View.set_slice_whole, Rect.mem_set_unit]
  exact PlainRows.rows_cover (m := 8192) (n := 64) (by decide) i _ (e4.trans ht) e5

theorem final0 (c : Dev nD) :
    ((dat0 (F := Ideal) V c).arrAt 2 cfg0.N : S65536x64.Idx → EReal)
      = Host.dotGeneral (F := Ideal) (φ₁ := .f32) (φ₂ := .f32) Cert.ReferenceIdeal.dot_S65536x32_S32x64_S65536x64_1_0_0_1_n_n none
          (V c main_arg0 : FVec Ideal S65536x32 .f32) (V c main_arg5 : FVec Ideal S32x64 .f32) :=
  (dat0 (F := Ideal) V c).arrAt_eq_of_cover 2 _ (fun t _ => flushed0_eq V c t) cover0

end

abbrev ref2 (x : FVec Ideal S65536x64 .f32) (b : FVec Ideal S64 .f32) (w : FVec Ideal S64x64 .f32) : FVec Ideal S65536x64 .f32 :=
  Host.dotGeneral (F := Ideal) Cert.ReferenceIdeal.dot_S65536x64_S64x64_S65536x64_1_0_0_1_n_n none
    (maximumf (addf x (Cert.ReferenceIdeal.Read.val_main_v40 (F := Ideal) b)) (Cert.ReferenceIdeal.Read.val_main_call3_v0 (F := Ideal))) w

section
variable (V : (c : Dev nD) → (b : Ref sig .tc) → Buf (Elt Ideal) ((c : Thread nD τ).loc b))

theorem idx2 : ∀ t : Fin cfg2.N, win2_0.index t (0 : Fin 2) = t.val ∧ win2_0.index t (1 : Fin 2) = 0
    ∧ (∀ a : Fin 2, win2_1.index t a = 0) ∧ (∀ a : Fin 2, win2_2.index t a = 0)
    ∧ win2_3.index t (0 : Fin 2) = t.val ∧ win2_3.index t (1 : Fin 2) = 0 :=
  (by decide +kernel : ∀ t : Fin grid2.N, _)

-- Block t of the output is the reference's stage on rows 8192 t ≤ r < 8192 (t + 1).
theorem flushed2_eq (c : Dev nD) (b : FVec Ideal S64 .f32)
    (hb : ∀ q : Fin 64, (V c main_v15 : S1x64.Idx → EReal) (ix2 (0 : Fin 1) q) = b (ix1 q)) (t : Fin cfg2.N) :
    (dat2 (F := Ideal) V c).flushed 3 t
      = ((cfg2.win 3).blk t).view.read (Elt Ideal) (ref2 (V c main_v14) b (V c main_arg7)) := by
  show (cfg2.win 3).cut (grid2.coords t) ((dat2 (F := Ideal) V c).after 3 t) = _
  rw [after2_3]
  unfold out2_3
  rw [View.canon_unit_zero hzN]
  simp only [View.ld_unit_zero (S := S8192x64) hzN, View.ld_unit_zero (S := S64x64) hzN, View.ld_unit_zero (S := S1x64) hzN]
  obtain ⟨e0, e1, e2, e4, e6, e7⟩ := idx2 t
  funext j
  exact PlainRows.relu_matmul_rowBlock none none _ _ _ _ _ _ _ _ _ _ (win2_3.index t 0 * 8192)
    (fun y x g0 g1 => congrArg (V c main_v14) (Shape.idx_ext₂
      ((win2_0.rect_emb_val t y 0).trans ((congrArg (· * 8192 + (y 0).val) (e0.trans e6.symm)).trans g0.symm))
      ((win2_0.rect_emb_val_of_index_zero t 1 e1 y).trans g1.symm)))
    (fun r k => ((congrArg (V c main_v15) (PlainRows.whole_emb win2_2 t e4 _ _ fun _ => rfl)).trans (hb k)).trans (PlainRows.rowBroadcast_apply b _ _ r k).symm)
    (fun i => (Cert.ReferenceIdeal.Read.val_main_call3_v0_apply (F := Ideal) i).trans rfl)
    (funext fun y => congrArg (V c main_arg7) (PlainRows.whole_emb win2_1 t e2 y y fun _ => rfl))
    j (((cfg2.win 3).blk t).view.emb j) (win2_3.rect_emb_val t j 0) (win2_3.rect_emb_val_of_index_zero t 1 e7 j)

theorem cover2 (i : S65536x64.Idx) : ∃ t : Fin cfg2.N, (cfg2.win 3).flush t = true ∧ i ∈ ((cfg2.win 3).blk t).view.set := by
  have hi : (i 0).val < 65536 := (i 0).isLt
  have hN : cfg2.N = 8 := N_2
  obtain ⟨t, ht⟩ : ∃ t : Fin cfg2.N, t.val = (i 0).val / 8192 := ⟨⟨_, by rw [hN]; omega⟩, rfl⟩
  obtain ⟨-, -, -, -, e6, e7⟩ := idx2 t
  refine ⟨t, flush2_3 t, ?_⟩
  show i ∈ ((View.whole main_v16).slice (win2_3.rect t)).set
  rw [View.set_slice_whole, Rect.mem_set_unit]
  exact PlainRows.rows_cover (m := 8192) (n := 64) (by decide) i _ (e6.trans ht) e7

theorem final2 (c : Dev nD) (b : FVec Ideal S64 .f32)
    (hb : ∀ q : Fin 64, (V c main_v15 : S1x64.Idx → EReal) (ix2 (0 : Fin 1) q) = b (ix1 q)) :
    ((dat2 (F := Ideal) V c).arrAt 3 cfg2.N : S65536x64.Idx → EReal)
      = Host.dotGeneral (F := Ideal) (φ₁ := .f32) (φ₂ := .f32) Cert.ReferenceIdeal.dot_S65536x64_S64x64_S65536x64_1_0_0_1_n_n none
          (maximumf (addf (V c main_v14 : FVec Ideal S65536x64 .f32) (Cert.ReferenceIdeal.Read.val_main_v40 (F := Ideal) b)) (Cert.ReferenceIdeal.Read.val_main_call3_v0 (F := Ideal)))
          (V c main_arg7 : FVec Ideal S64x64 .f32) :=
  (dat2 (F := Ideal) V c).arrAt_eq_of_cover 3 (ref2 (V c main_v14) b (V c main_arg7)) (fun t _ => flushed2_eq V c b hb t) cover2

end

abbrev ref4 (x : FVec Ideal S65536x64 .f32) (b : FVec Ideal S64 .f32) (w : FVec Ideal S64x1 .f32) : FVec Ideal S65536x1 .f32 :=
  Host.dotGeneral (F := Ideal) Cert.ReferenceIdeal.dot_S65536x64_S64x1_S65536x1_1_0_0_1_n_n none
    (maximumf (addf x (Cert.ReferenceIdeal.Read.val_main_v56 (F := Ideal) b)) (Cert.ReferenceIdeal.Read.val_main_call4_v0 (F := Ideal))) w

section
variable (V : (c : Dev nD) → (b : Ref sig .tc) → Buf (Elt Ideal) ((c : Thread nD τ).loc b))

theorem idx4 : ∀ t : Fin cfg4.N, win4_0.index t (0 : Fin 2) = t.val ∧ win4_0.index t (1 : Fin 2) = 0
    ∧ (∀ a : Fin 2, win4_1.index t a = 0) ∧ (∀ a : Fin 2, win4_2.index t a = 0)
    ∧ win4_3.index t (0 : Fin 2) = t.val ∧ win4_3.index t (1 : Fin 2) = 0 :=
  (by decide +kernel : ∀ t : Fin grid4.N, _)

-- Block t of the output is the reference's stage on rows 8192 t ≤ r < 8192 (t + 1).
theorem flushed4_eq (c : Dev nD) (b : FVec Ideal S64 .f32)
    (hb : ∀ q : Fin 64, (V c main_v31 : S1x64.Idx → EReal) (ix2 (0 : Fin 1) q) = b (ix1 q)) (t : Fin cfg4.N) :
    (dat4 (F := Ideal) V c).flushed 3 t
      = ((cfg4.win 3).blk t).view.read (Elt Ideal) (ref4 (V c main_v30) b (V c main_arg9)) := by
  show (cfg4.win 3).cut (grid4.coords t) ((dat4 (F := Ideal) V c).after 3 t) = _
  rw [after4_3]
  unfold out4_3
  rw [View.canon_unit_zero hzN]
  simp only [View.ld_unit_zero (S := S8192x64) hzN, View.ld_unit_zero (S := S64x1) hzN, View.ld_unit_zero (S := S1x64) hzN]
  obtain ⟨e0, e1, e2, e4, e6, e7⟩ := idx4 t
  funext j
  exact PlainRows.relu_matmul_rowBlock none none _ _ _ _ _ _ _ _ _ _ (win4_3.index t 0 * 8192)
    (fun y x g0 g1 => congrArg (V c main_v30) (Shape.idx_ext₂
      ((win4_0.rect_emb_val t y 0).trans ((congrArg (· * 8192 + (y 0).val) (e0.trans e6.symm)).trans g0.symm))
      ((win4_0.rect_emb_val_of_index_zero t 1 e1 y).trans g1.symm)))
    (fun r k => ((congrArg (V c main_v31) (PlainRows.whole_emb win4_2 t e4 _ _ fun _ => rfl)).trans (hb k)).trans (PlainRows.rowBroadcast_apply b _ _ r k).symm)
    (fun i => (Cert.ReferenceIdeal.Read.val_main_call4_v0_apply (F := Ideal) i).trans rfl)
    (funext fun y => congrArg (V c main_arg9) (PlainRows.whole_emb win4_1 t e2 y y fun _ => rfl))
    j (((cfg4.win 3).blk t).view.emb j) (win4_3.rect_emb_val t j 0) (win4_3.rect_emb_val_of_index_zero t 1 e7 j)

theorem cover4 (i : S65536x1.Idx) : ∃ t : Fin cfg4.N, (cfg4.win 3).flush t = true ∧ i ∈ ((cfg4.win 3).blk t).view.set := by
  have hi : (i 0).val < 65536 := (i 0).isLt
  have hN : cfg4.N = 8 := N_4
  obtain ⟨t, ht⟩ : ∃ t : Fin cfg4.N, t.val = (i 0).val / 8192 := ⟨⟨_, by rw [hN]; omega⟩, rfl⟩
  obtain ⟨-, -, -, -, e6, e7⟩ := idx4 t
  refine ⟨t, flush4_3 t, ?_⟩
  show i ∈ ((View.whole main_v32).slice (win4_3.rect t)).set
  rw [View.set_slice_whole, Rect.mem_set_unit]
  exact PlainRows.rows_cover (m := 8192) (n := 1) (by decide) i _ (e6.trans ht) e7

theorem final4 (c : Dev nD) (b : FVec Ideal S64 .f32)
    (hb : ∀ q : Fin 64, (V c main_v31 : S1x64.Idx → EReal) (ix2 (0 : Fin 1) q) = b (ix1 q)) :
    ((dat4 (F := Ideal) V c).arrAt 3 cfg4.N : S65536x1.Idx → EReal)
      = Host.dotGeneral (F := Ideal) (φ₁ := .f32) (φ₂ := .f32) Cert.ReferenceIdeal.dot_S65536x64_S64x1_S65536x1_1_0_0_1_n_n none
          (maximumf (addf (V c main_v30 : FVec Ideal S65536x64 .f32) (Cert.ReferenceIdeal.Read.val_main_v56 (F := Ideal) b)) (Cert.ReferenceIdeal.Read.val_main_call4_v0 (F := Ideal)))
          (V c main_arg9 : FVec Ideal S64x1 .f32) :=
  (dat4 (F := Ideal) V c).arrAt_eq_of_cover 3 (ref4 (V c main_v30) b (V c main_arg9)) (fun t _ => flushed4_eq V c b hb t) cover4

end

end Cert.KernelIdeal.ValH
-- ==== Proof.KI.ValEdge.lean ====
import proofs.«408255_j5076651344425_4_alg».proof.Proof.KI.RegA1
import proofs.«408255_j5076651344425_4_alg».proof.Proof.KI.RegA3
import proofs.«408255_j5076651344425_4_alg».proof.Proof.KI.RegA5
import proofs.«408255_j5076651344425_4_alg».proof.Proof.Gen.ReferenceIdeal.Read
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

set_option maxRecDepth 16384

noncomputable section

namespace Cert.KernelIdeal.ValH

open Cert.KernelIdeal Cert.KernelIdeal.Gen
open Idealize.ShloMosaic Idealize.ShloMosaic.TcCoe Idealize.ShloMosaic.ValueIdx Idealize.SL.Sem
open Idealize.ShloMosaic.Pipeline (Dat)
open Cert.ReferenceIdeal.Read

-- A dense layer with its bias, the rectifier, and one column of a second dense layer with its bias, on one row of features.
def enc {K H : Nat} (xr : Fin K → EReal) (W1 : (⟨2, ![K, H]⟩ : Shape).Idx → EReal) (c1 : Fin H → EReal)
    (w2 : Fin H → EReal) (c2 : EReal) : EReal :=
  (∑ k : Fin H, max (∑ j : Fin K, xr j * W1 (ix2 j k) + c1 k) 0 * w2 k) + c2

theorem enc_congr {K H : Nat} {xr xr' : Fin K → EReal} {W1 W1' : (⟨2, ![K, H]⟩ : Shape).Idx → EReal} {c1 c1' : Fin H → EReal}
    {w2 w2' : Fin H → EReal} {c2 c2' : EReal} (hx : ∀ j, xr j = xr' j) (hW : ∀ j k, W1 (ix2 j k) = W1' (ix2 j k))
    (hc1 : ∀ k, c1 k = c1' k) (hw2 : ∀ k, w2 k = w2' k) (hc2 : c2 = c2') : enc xr W1 c1 w2 c2 = enc xr' W1' c1' w2' c2' := by
  unfold enc
  rw [hc2]
  congr 1
  refine Finset.sum_congr rfl fun k _ => ?_
  rw [hc1 k, hw2 k]
  congr 3
  exact Finset.sum_congr rfl fun j _ => by rw [hx j, hW j k]

theorem hz : (![0, 0] : Fin 2 → Nat) = fun _ => 0 := funext fun a => by fin_cases a <;> rfl

-- A block's coordinate in its array: block index x times block size B plus the coordinate p inside the block.
private theorem off_row {x t B p : ℕ} (e : x = t) : x * B + 1 * p = t * B + p := by rw [e, Nat.one_mul]
private theorem off_zero {x B q : ℕ} (e : x = 0) : x * B + 1 * q = q := by rw [e, Nat.zero_mul, Nat.zero_add, Nat.one_mul]
-- Coordinate i lies in block i / B of blocks of size B, and in the one block of a whole axis.
private theorem cover_row {x i B : ℕ} (hB : 0 < B) (e : x = i / B) : x * B ≤ i ∧ i < x * B + B := by
  rw [e]; exact ⟨Nat.div_mul_le_self i B, Nat.lt_div_mul_add hB⟩
private theorem cover_zero {x i B : ℕ} (e : x = 0) (h : i < B) : x * B ≤ i ∧ i < x * B + B := by
  rw [e, Nat.zero_mul, Nat.zero_add]; exact ⟨Nat.zero_le _, h⟩

theorem pay1_apply (x0 : FVec Ideal S8192x64 .bf16) (x1 : FVec Ideal S8192x8 .f32) (W1 : FVec Ideal S8x64 .f32)
    (c1 : FVec Ideal S1x64 .f32) (W2 : FVec Ideal S64x64 .f32) (c2 : FVec Ideal S1x64 .f32) (p : Fin 8192) (q : Fin 64) :
    k1_pay1 (F := Ideal) x0 x1 W1 c1 W2 c2 (ix2 p q)
      = x0 (ix2 p q) * enc (fun j => x1 (ix2 p j)) W1 (fun k => c1 (ix2 (0 : Fin 1) k)) (fun k => W2 (ix2 k q)) (c2 (ix2 (0 : Fin 1) q)) := by
  have e1 : ∀ k : Fin 64, matmul dot_S8192x8_S8x64_S8192x64_1_0_0_1_n_n none x1 W1 (constant S8192x64 .f32 0x00000000#32) (ix2 p k)
      = ∑ j : Fin 8, x1 (ix2 p j) * W1 (ix2 j k) := fun k => by
    rw [matmul_zero_eq_dotGeneral]; exact StackMember.dotGeneral_plain_apply none x1 W1 p k
  unfold k1_pay1
  simp only [truncf_apply, mulf_apply, extf_apply, addf_apply, shapeCast_self]
  congr 1
  unfold enc
  congr 1
  · rw [matmul_zero_eq_dotGeneral]
    refine (StackMember.dotGeneral_plain_apply none _ W2 p q).trans (Finset.sum_congr rfl fun k _ => ?_)
    congr 1
    rw [maximumf_apply, addf_apply, e1 k, broadcastTo_1b_ab_apply, broadcast_apply]
    show max _ (Ideal.ofBits .f32 0x00000000#32) = _
    rw [Ideal.ofBits_zero_f32]
  · exact broadcastTo_1b_ab_apply c2 _ p q

theorem ref1_apply (X : FVec Ideal S1048576x8 .f32) (W1 : FVec Ideal S8x64 .f32) (b1 : FVec Ideal S64 .f32)
    (W2 : FVec Ideal S64x64 .f32) (b2 : FVec Ideal S64 .f32) (p : Fin 1048576) (q : Fin 64) :
    Cert.ReferenceIdeal.Read.val_main_v8 (F := Ideal) X W1 b1 W2 b2 (ix2 p q)
      = enc (fun j => X (ix2 p j)) W1 (fun k => b1 (ix1 k)) (fun k => W2 (ix2 k q)) (b2 (ix1 q)) := by
  rw [val_main_v8_apply, val_main_v7_apply, val_main_v6_apply, show idx_main_v6 (idx_main_v7 (ix2 p q)) = ix1 q from eq_ix1 _,
    val_main_v5_apply]
  unfold enc
  simp only [Ideal.addf_def]
  congr 1
  refine Finset.sum_congr rfl fun k _ => ?_
  rw [show lidx_main_v5 (ix2 p q) k = ix2 p k from eq_ix2 _, show ridx_main_v5 (ix2 p q) k = ix2 k q from eq_ix2 _,
    val_main_v4_apply, val_main_v3_apply, val_main_v2_apply, val_main_v1_apply,
    show idx_main_v1 (idx_main_v2 (ix2 p k)) = ix1 k from eq_ix1 _, val_main_v0_apply, val_main_call0_v0_apply, val_main_call0_cst_apply]
  simp only [show ∀ j, lidx_main_v0 (ix2 p k) j = ix2 p j from fun _ => eq_ix2 _,
    show ∀ j, ridx_main_v0 (ix2 p k) j = ix2 j k from fun _ => eq_ix2 _,
    Ideal.addf_def, Ideal.maximumf_def, Ideal.ofBits_def, Ideal.ofBits_zero_f32]

-- The payload at an entry, from entries of the six arrays, is the support entry times the encoder stage there.
private theorem gate64 (sup : FVec Ideal S1048576x64 .bf16) (feat : FVec Ideal S1048576x8 .f32) (wA : FVec Ideal S8x64 .f32)
    (wB : FVec Ideal S64x64 .f32) (b1 b2 : FVec Ideal S64 .f32) (x0 : FVec Ideal S8192x64 .bf16) (x1 : FVec Ideal S8192x8 .f32)
    (x2 : FVec Ideal S8x64 .f32) (x3 : FVec Ideal S1x64 .f32) (x4 : FVec Ideal S64x64 .f32) (x5 : FVec Ideal S1x64 .f32)
    (p : Fin 8192) (q : Fin 64) (P : Fin 1048576) (I : S1048576x64.Idx) (hI : I = ix2 P q)
    (h0 : x0 (ix2 p q) = sup (ix2 P q)) (h1 : ∀ j, x1 (ix2 p j) = feat (ix2 P j)) (h2 : ∀ j k, x2 (ix2 j k) = wA (ix2 j k))
    (h3 : ∀ k, x3 (ix2 (0 : Fin 1) k) = b1 (ix1 k)) (h4 : ∀ k, x4 (ix2 k q) = wB (ix2 k q)) (h5 : x5 (ix2 (0 : Fin 1) q) = b2 (ix1 q)) :
    k1_pay1 (F := Ideal) x0 x1 x2 x3 x4 x5 (ix2 p q) = mulf sup (val_main_v8 (F := Ideal) feat wA b1 wB b2) I := by
  rw [hI, pay1_apply, mulf_apply, ref1_apply, h0]
  exact congrArg (sup (ix2 P q) * ·) (enc_congr h1 h2 h3 h4 h5)

theorem pay5_apply (x0 : FVec Ideal S8192x1 .f32) (x1 : FVec Ideal S8192x8 .f32) (W1 : FVec Ideal S8x1 .f32)
    (c1 : FVec Ideal S1x1 .f32) (W2 : FVec Ideal S1x1 .f32) (c2 : FVec Ideal S1x1 .f32) (p : Fin 8192) (q : Fin 1) :
    k5_pay1 (F := Ideal) x0 x1 W1 c1 W2 c2 (ix2 p q)
      = x0 (ix2 p q) * enc (fun j => x1 (ix2 p j)) W1 (fun k => c1 (ix2 (0 : Fin 1) k)) (fun k => W2 (ix2 k q)) (c2 (ix2 (0 : Fin 1) q)) := by
  have e1 : ∀ k : Fin 1, matmul dot_S8192x8_S8x1_S8192x1_1_0_0_1_n_n none x1 W1 (constant S8192x1 .f32 0x00000000#32) (ix2 p k)
      = ∑ j : Fin 8, x1 (ix2 p j) * W1 (ix2 j k) := fun k => by
    rw [matmul_zero_eq_dotGeneral]; exact StackMember.dotGeneral_plain_apply none x1 W1 p k
  unfold k5_pay1
  simp only [truncf_apply, mulf_apply, extf_apply, addf_apply, shapeCast_self]
  congr 1
  unfold enc
  congr 1
  · rw [matmul_zero_eq_dotGeneral]
    refine (StackMember.dotGeneral_plain_apply none _ W2 p q).trans (Finset.sum_congr rfl fun k _ => ?_)
    congr 1
    rw [maximumf_apply, addf_apply, e1 k, broadcastTo_1b_ab_apply, broadcast_apply]
    show max _ (Ideal.ofBits .f32 0x00000000#32) = _
    rw [Ideal.ofBits_zero_f32]
  · exact broadcastTo_1b_ab_apply c2 _ p q

theorem ref5_apply (X : FVec Ideal S1048576x8 .f32) (W1 : FVec Ideal S8x1 .f32) (b1 : FVec Ideal S1 .f32)
    (W2 : FVec Ideal S1x1 .f32) (b2 : FVec Ideal S1 .f32) (p : Fin 1048576) (q : Fin 1) :
    Cert.ReferenceIdeal.Read.val_main_v26 (F := Ideal) X W1 b1 W2 b2 (ix2 p q)
      = enc (fun j => X (ix2 p j)) W1 (fun k => b1 (ix1 k)) (fun k => W2 (ix2 k q)) (b2 (ix1 q)) := by
  have i7 : idx_main_v24 (idx_main_v25 (ix2 p q)) = ix1 q := funext fun a => Fin.ext (by match a with | ⟨0, _⟩ => first | rfl | (show (0 : Nat) = q.val; have := q.isLt; omega))
  have i2 : ∀ k : Fin 1, idx_main_v19 (idx_main_v20 (ix2 p k)) = ix1 k := fun k => funext fun a => Fin.ext (by match a with | ⟨0, _⟩ => first | rfl | (show (0 : Nat) = k.val; have := k.isLt; omega))
  rw [val_main_v26_apply, val_main_v25_apply, val_main_v24_apply, i7, val_main_v23_apply]
  unfold enc
  simp only [Ideal.addf_def]
  congr 1
  refine Finset.sum_congr rfl fun k _ => ?_
  rw [show lidx_main_v23 (ix2 p q) k = ix2 p k from eq_ix2 _, show ridx_main_v23 (ix2 p q) k = ix2 k q from eq_ix2 _,
    val_main_v22_apply, val_main_v21_apply, val_main_v20_apply, val_main_v19_apply, i2, val_main_v18_apply,
    val_main_call2_v0_apply, val_main_call2_cst_apply]
  simp only [show ∀ j, lidx_main_v18 (ix2 p k) j = ix2 p j from fun _ => eq_ix2 _,
    show ∀ j, ridx_main_v18 (ix2 p k) j = ix2 j k from fun _ => eq_ix2 _,
    Ideal.addf_def, Ideal.maximumf_def, Ideal.ofBits_def, Ideal.ofBits_zero_f32]

private theorem gate1 (sup : FVec Ideal S1048576x1 .f32) (feat : FVec Ideal S1048576x8 .f32) (wA : FVec Ideal S8x1 .f32)
    (wB : FVec Ideal S1x1 .f32) (b1 b2 : FVec Ideal S1 .f32) (x0 : FVec Ideal S8192x1 .f32) (x1 : FVec Ideal S8192x8 .f32)
    (x2 : FVec Ideal S8x1 .f32) (x3 : FVec Ideal S1x1 .f32) (x4 : FVec Ideal S1x1 .f32) (x5 : FVec Ideal S1x1 .f32)
    (p : Fin 8192) (q : Fin 1) (P : Fin 1048576) (I : S1048576x1.Idx) (hI : I = ix2 P q)
    (h0 : x0 (ix2 p q) = sup (ix2 P q)) (h1 : ∀ j, x1 (ix2 p j) = feat (ix2 P j)) (h2 : ∀ j k, x2 (ix2 j k) = wA (ix2 j k))
    (h3 : ∀ k, x3 (ix2 (0 : Fin 1) k) = b1 (ix1 k)) (h4 : ∀ k, x4 (ix2 k q) = wB (ix2 k q)) (h5 : x5 (ix2 (0 : Fin 1) q) = b2 (ix1 q)) :
    k5_pay1 (F := Ideal) x0 x1 x2 x3 x4 x5 (ix2 p q) = mulf sup (val_main_v26 (F := Ideal) feat wA b1 wB b2) I := by
  rw [hI, pay5_apply, mulf_apply, ref5_apply, h0]
  exact congrArg (sup (ix2 P q) * ·) (enc_congr h1 h2 h3 h4 h5)

section Region1
variable (V : (c : Dev nD) → (b : Ref sig .tc) → Buf (Elt Ideal) ((c : Thread nD τ).loc b))

abbrev G1 (c : Dev nD) (b1 b2 : FVec Ideal S64 .f32) : FVec Ideal S1048576x64 .bf16 :=
  mulf (V c main_v7) (val_main_v8 (F := Ideal) (V c main_arg1) (V c main_arg11) b1 (V c main_arg13) b2)

theorem idx1 : ∀ t : Fin cfg1.N, win1_0.index t (0 : Fin 2) = t.val ∧ win1_1.index t (0 : Fin 2) = t.val ∧ win1_6.index t (0 : Fin 2) = t.val :=
  (by decide +kernel : ∀ t : Fin grid1.N, _)

theorem flushed1_eq (c : Dev nD) (b1 b2 : FVec Ideal S64 .f32)
    (hb1 : ∀ k : Fin 64, (V c main_v8 : S1x64.Idx → EReal) (ix2 (0 : Fin 1) k) = b1 (ix1 k))
    (hb2 : ∀ q : Fin 64, (V c main_v9 : S1x64.Idx → EReal) (ix2 (0 : Fin 1) q) = b2 (ix1 q)) (t : Fin cfg1.N) :
    (GenH.dat1 (F := Ideal) V c).flushed 6 t = ((cfg1.win 6).blk t).view.read (Elt Ideal) (G1 V c b1 b2) := by
  obtain ⟨e0, e1, e6⟩ := idx1 t
  show (cfg1.win 6).cut (grid1.coords t) ((GenH.dat1 V c).after 6 t) = _
  rw [GenH.after1_6]
  unfold GenH.out1_6
  simp only [View.canon_unit_zero (S := ⟨2, _⟩) hz, View.ld_unit_zero (S := ⟨2, _⟩) hz]
  funext j
  obtain ⟨p, q, rfl⟩ : ∃ (p : Fin 8192) (q : Fin 64), j = ix2 p q := ⟨j 0, j 1, eq_ix2 j⟩
  have hP : t.val * 8192 + p.val < 1048576 := by
    have := lt_of_lt_of_eq t.isLt N_1
    have := p.isLt
    omega
  exact gate64 _ _ _ _ b1 b2 _ _ _ _ _ _ p q ⟨_, hP⟩ _ (Shape.idx_ext₂ (off_row e6) (off_zero rfl))
    (congrArg (V c main_v7) (Shape.idx_ext₂ (off_row e0) (off_zero rfl)))
    (fun j => congrArg (V c main_arg1) (Shape.idx_ext₂ (off_row e1) (off_zero rfl)))
    (fun j k => congrArg (V c main_arg11) (Shape.idx_ext₂ (off_zero rfl) (off_zero rfl)))
    (fun k => (congrArg (V c main_v8) (Shape.idx_ext₂ (off_zero rfl) (off_zero rfl))).trans (hb1 k))
    (fun k => congrArg (V c main_arg13) (Shape.idx_ext₂ (off_zero rfl) (off_zero rfl)))
    ((congrArg (V c main_v9) (Shape.idx_ext₂ (off_zero rfl) (off_zero rfl))).trans (hb2 q))

theorem final1 (c : Dev nD) (b1 : FVec Ideal S64 .f32) (b2 : FVec Ideal S64 .f32)
    (hb1 : ∀ k : Fin 64, (V c main_v8 : S1x64.Idx → EReal) (ix2 (0 : Fin 1) k) = b1 (ix1 k))
    (hb2 : ∀ q : Fin 64, (V c main_v9 : S1x64.Idx → EReal) (ix2 (0 : Fin 1) q) = b2 (ix1 q)) :
    (GenH.dat1 (F := Ideal) V c).arrAt 6 cfg1.N
      = (mulf (V c main_v7 : FVec Ideal S1048576x64 .bf16)
          (Cert.ReferenceIdeal.Read.val_main_v8 (F := Ideal) (V c main_arg1) (V c main_arg11) b1 (V c main_arg13) b2) : FVec Ideal S1048576x64 .bf16) :=
  (GenH.dat1 (F := Ideal) V c).arrAt_eq_of_cover 6 (G1 V c b1 b2) (fun t _ => flushed1_eq V c b1 b2 hb1 hb2 t) fun i => by
    have ht : (i 0).val / 8192 < cfg1.N := lt_of_lt_of_eq (Nat.div_lt_of_lt_mul (i 0).isLt) N_1.symm
    refine ⟨⟨_, ht⟩, flush1_6 _, ?_⟩
    show i ∈ ((View.whole main_v10).slice (win1_6.rect ⟨_, ht⟩)).set
    rw [View.set_slice_whole, Rect.mem_set_unit]
    exact Fin.forall_fin_two.mpr ⟨cover_row (by decide) (idx1 ⟨_, ht⟩).2.2, cover_zero rfl (i 1).isLt⟩

end Region1

section Region3
variable (V : (c : Dev nD) → (b : Ref sig .tc) → Buf (Elt Ideal) ((c : Thread nD τ).loc b))

abbrev G3 (c : Dev nD) (b1 b2 : FVec Ideal S64 .f32) : FVec Ideal S1048576x64 .bf16 :=
  mulf (V c main_v23) (val_main_v17 (F := Ideal) (V c main_arg1) (V c main_arg15) b1 (V c main_arg17) b2)

theorem idx3 : ∀ t : Fin cfg3.N, win3_0.index t (0 : Fin 2) = t.val ∧ win3_1.index t (0 : Fin 2) = t.val ∧ win3_6.index t (0 : Fin 2) = t.val :=
  (by decide +kernel : ∀ t : Fin grid3.N, _)

theorem flushed3_eq (c : Dev nD) (b1 b2 : FVec Ideal S64 .f32)
    (hb1 : ∀ k : Fin 64, (V c main_v24 : S1x64.Idx → EReal) (ix2 (0 : Fin 1) k) = b1 (ix1 k))
    (hb2 : ∀ q : Fin 64, (V c main_v25 : S1x64.Idx → EReal) (ix2 (0 : Fin 1) q) = b2 (ix1 q)) (t : Fin cfg3.N) :
    (GenH.dat3 (F := Ideal) V c).flushed 6 t = ((cfg3.win 6).blk t).view.read (Elt Ideal) (G3 V c b1 b2) := by
  obtain ⟨e0, e1, e6⟩ := idx3 t
  show (cfg3.win 6).cut (grid3.coords t) ((GenH.dat3 V c).after 6 t) = _
  rw [GenH.after3_6]
  unfold GenH.out3_6
  simp only [View.canon_unit_zero (S := ⟨2, _⟩) hz, View.ld_unit_zero (S := ⟨2, _⟩) hz]
  funext j
  obtain ⟨p, q, rfl⟩ : ∃ (p : Fin 8192) (q : Fin 64), j = ix2 p q := ⟨j 0, j 1, eq_ix2 j⟩
  have hP : t.val * 8192 + p.val < 1048576 := by
    have := lt_of_lt_of_eq t.isLt N_3
    have := p.isLt
    omega
  exact gate64 _ _ _ _ b1 b2 _ _ _ _ _ _ p q ⟨_, hP⟩ _ (Shape.idx_ext₂ (off_row e6) (off_zero rfl))
    (congrArg (V c main_v23) (Shape.idx_ext₂ (off_row e0) (off_zero rfl)))
    (fun j => congrArg (V c main_arg1) (Shape.idx_ext₂ (off_row e1) (off_zero rfl)))
    (fun j k => congrArg (V c main_arg15) (Shape.idx_ext₂ (off_zero rfl) (off_zero rfl)))
    (fun k => (congrArg (V c main_v24) (Shape.idx_ext₂ (off_zero rfl) (off_zero rfl))).trans (hb1 k))
    (fun k => congrArg (V c main_arg17) (Shape.idx_ext₂ (off_zero rfl) (off_zero rfl)))
    ((congrArg (V c main_v25) (Shape.idx_ext₂ (off_zero rfl) (off_zero rfl))).trans (hb2 q))

theorem final3 (c : Dev nD) (b1 : FVec Ideal S64 .f32) (b2 : FVec Ideal S64 .f32)
    (hb1 : ∀ k : Fin 64, (V c main_v24 : S1x64.Idx → EReal) (ix2 (0 : Fin 1) k) = b1 (ix1 k))
    (hb2 : ∀ q : Fin 64, (V c main_v25 : S1x64.Idx → EReal) (ix2 (0 : Fin 1) q) = b2 (ix1 q)) :
    (GenH.dat3 (F := Ideal) V c).arrAt 6 cfg3.N
      = (mulf (V c main_v23 : FVec Ideal S1048576x64 .bf16)
          (Cert.ReferenceIdeal.Read.val_main_v17 (F := Ideal) (V c main_arg1) (V c main_arg15) b1 (V c main_arg17) b2) : FVec Ideal S1048576x64 .bf16) :=
  (GenH.dat3 (F := Ideal) V c).arrAt_eq_of_cover 6 (G3 V c b1 b2) (fun t _ => flushed3_eq V c b1 b2 hb1 hb2 t) fun i => by
    have ht : (i 0).val / 8192 < cfg3.N := lt_of_lt_of_eq (Nat.div_lt_of_lt_mul (i 0).isLt) N_3.symm
    refine ⟨⟨_, ht⟩, flush3_6 _, ?_⟩
    show i ∈ ((View.whole main_v26).slice (win3_6.rect ⟨_, ht⟩)).set
    rw [View.set_slice_whole, Rect.mem_set_unit]
    exact Fin.forall_fin_two.mpr ⟨cover_row (by decide) (idx3 ⟨_, ht⟩).2.2, cover_zero rfl (i 1).isLt⟩

end Region3

section Region5
variable (V : (c : Dev nD) → (b : Ref sig .tc) → Buf (Elt Ideal) ((c : Thread nD τ).loc b))

abbrev G5 (c : Dev nD) (b1 b2 : FVec Ideal S1 .f32) : FVec Ideal S1048576x1 .f32 :=
  mulf (V c main_v39) (val_main_v26 (F := Ideal) (V c main_arg1) (V c main_arg19) b1 (V c main_arg21) b2)

theorem idx5 : ∀ t : Fin cfg5.N, win5_0.index t (0 : Fin 2) = t.val ∧ win5_1.index t (0 : Fin 2) = t.val ∧ win5_6.index t (0 : Fin 2) = t.val :=
  (by decide +kernel : ∀ t : Fin grid5.N, _)

theorem flushed5_eq (c : Dev nD) (b1 b2 : FVec Ideal S1 .f32)
    (hb1 : ∀ k : Fin 1, (V c main_v40 : S1x1.Idx → EReal) (ix2 (0 : Fin 1) k) = b1 (ix1 k))
    (hb2 : ∀ q : Fin 1, (V c main_v41 : S1x1.Idx → EReal) (ix2 (0 : Fin 1) q) = b2 (ix1 q)) (t : Fin cfg5.N) :
    (GenH.dat5 (F := Ideal) V c).flushed 6 t = ((cfg5.win 6).blk t).view.read (Elt Ideal) (G5 V c b1 b2) := by
  obtain ⟨e0, e1, e6⟩ := idx5 t
  show (cfg5.win 6).cut (grid5.coords t) ((GenH.dat5 V c).after 6 t) = _
  rw [GenH.after5_6]
  unfold GenH.out5_6
  simp only [View.canon_unit_zero (S := ⟨2, _⟩) hz, View.ld_unit_zero (S := ⟨2, _⟩) hz]
  funext j
  obtain ⟨p, q, rfl⟩ : ∃ (p : Fin 8192) (q : Fin 1), j = ix2 p q := ⟨j 0, j 1, eq_ix2 j⟩
  have hP : t.val * 8192 + p.val < 1048576 := by
    have := lt_of_lt_of_eq t.isLt N_5
    have := p.isLt
    omega
  exact gate1 _ _ _ _ b1 b2 _ _ _ _ _ _ p q ⟨_, hP⟩ _ (Shape.idx_ext₂ (off_row e6) (off_zero rfl))
    (congrArg (V c main_v39) (Shape.idx_ext₂ (off_row e0) (off_zero rfl)))
    (fun j => congrArg (V c main_arg1) (Shape.idx_ext₂ (off_row e1) (off_zero rfl)))
    (fun j k => congrArg (V c main_arg19) (Shape.idx_ext₂ (off_zero rfl) (off_zero rfl)))
    (fun k => (congrArg (V c main_v40) (Shape.idx_ext₂ (off_zero rfl) (off_zero rfl))).trans (hb1 k))
    (fun k => congrArg (V c main_arg21) (Shape.idx_ext₂ (off_zero rfl) (off_zero rfl)))
    ((congrArg (V c main_v41) (Shape.idx_ext₂ (off_zero rfl) (off_zero rfl))).trans (hb2 q))

theorem final5 (c : Dev nD) (b1 : FVec Ideal S1 .f32) (b2 : FVec Ideal S1 .f32)
    (hb1 : ∀ k : Fin 1, (V c main_v40 : S1x1.Idx → EReal) (ix2 (0 : Fin 1) k) = b1 (ix1 k))
    (hb2 : ∀ q : Fin 1, (V c main_v41 : S1x1.Idx → EReal) (ix2 (0 : Fin 1) q) = b2 (ix1 q)) :
    (GenH.dat5 (F := Ideal) V c).arrAt 6 cfg5.N
      = (mulf (V c main_v39 : FVec Ideal S1048576x1 .f32)
          (Cert.ReferenceIdeal.Read.val_main_v26 (F := Ideal) (V c main_arg1) (V c main_arg19) b1 (V c main_arg21) b2) : FVec Ideal S1048576x1 .f32) :=
  (GenH.dat5 (F := Ideal) V c).arrAt_eq_of_cover 6 (G5 V c b1 b2) (fun t _ => flushed5_eq V c b1 b2 hb1 hb2 t) fun i => by
    have ht : (i 0).val / 8192 < cfg5.N := lt_of_lt_of_eq (Nat.div_lt_of_lt_mul (i 0).isLt) N_5.symm
    refine ⟨⟨_, ht⟩, flush5_6 _, ?_⟩
    show i ∈ ((View.whole main_v42).slice (win5_6.rect ⟨_, ht⟩)).set
    rw [View.set_slice_whole, Rect.mem_set_unit]
    exact Fin.forall_fin_two.mpr ⟨cover_row (by decide) (idx5 ⟨_, ht⟩).2.2, cover_zero rfl (i 1).isLt⟩

end Region5

end Cert.KernelIdeal.ValH
-- ==== Proof.KI.RegR6Closed.lean ====
import proofs.«408255_j5076651344425_4_alg».proof.Proof.KI.RegR6

set_option maxRecDepth 16384

noncomputable section

namespace Cert.KernelIdeal.GenH

open Cert.KernelIdeal Cert.KernelIdeal.Gen
open Idealize.ShloMosaic Idealize.ShloMosaic.TcCoe
open Idealize.ShloMosaic.Pipeline (Dat)

variable {F : FTy → Type} [FloatOps F]

section Steps
variable (V : (c : Dev nD) → (b : Ref sig .tc) → Buf (Elt F) ((c : Thread nD τ).loc b))

theorem acc6_first (c : Dev nD) (t : Fin cfg6.N) (h0 : t.val = 0) :
    (outsAt6 V c t.val t.isLt).2.1 = k6_pay4 (iblk6 V c 1 t) (k6_pay1 (F := F)) (iblk6 V c 0 t) := by
  rw [outsAt6_eq V c t (k6_pay1, k6_pay2) (fun h => absurd h0 h)]; unfold step6 acc6; dsimp only; rw [if_pos ((hcond6_0 t).mpr h0)]

theorem cnt6_first (c : Dev nD) (t : Fin cfg6.N) (h0 : t.val = 0) :
    (outsAt6 V c t.val t.isLt).2.2 = k6_pay5 (iblk6 V c 1 t) (k6_pay2 (F := F)) := by
  rw [outsAt6_eq V c t (k6_pay1, k6_pay2) (fun h => absurd h0 h)]; unfold step6 cnt6; dsimp only; rw [if_pos ((hcond6_0 t).mpr h0)]

theorem acc6_step (c : Dev nD) (t : Fin cfg6.N) (h0 : t.val ≠ 0) :
    (outsAt6 V c t.val t.isLt).2.1
      = k6_pay4 (iblk6 V c 1 t) (outsAt6 V c (t.val - 1) (Nat.lt_of_le_of_lt (Nat.sub_le _ _) t.isLt)).2.1 (iblk6 V c 0 t) := by
  rw [outsAt6_eq V c t _ (fun _ => rfl)]; unfold step6 acc6; dsimp only; rw [if_neg (fun h => h0 ((hcond6_0 t).mp h))]

theorem cnt6_step (c : Dev nD) (t : Fin cfg6.N) (h0 : t.val ≠ 0) :
    (outsAt6 V c t.val t.isLt).2.2
      = k6_pay5 (iblk6 V c 1 t) (outsAt6 V c (t.val - 1) (Nat.lt_of_le_of_lt (Nat.sub_le _ _) t.isLt)).2.2 := by
  rw [outsAt6_eq V c t _ (fun _ => rfl)]; unfold step6 cnt6; dsimp only; rw [if_neg (fun h => h0 ((hcond6_0 t).mp h))]

theorem out6_last (c : Dev nD) (t : Fin cfg6.N) (h1 : t.val = 7) :
    (outsAt6 V c t.val t.isLt).1
      = k6_pay6 (outsAt6 V c t.val t.isLt).2.1 (outsAt6 V c t.val t.isLt).2.2 (iblk6 V c 2 t) := by
  obtain ⟨n, hn⟩ := t; cases n <;> rfl

theorem idx6_3 : ∀ t : Fin cfg6.N, win6_3.index t (0 : Fin 2) = 0 ∧ win6_3.index t (1 : Fin 2) = 0 :=
  (by decide +kernel : ∀ t : Fin grid6.N, win6_3.index t (0 : Fin 2) = 0 ∧ win6_3.index t (1 : Fin 2) = 0)

theorem arrAt6_3 (c : Dev nD) (y : S64x1.Idx) :
    (dat6 V c).arrAt 3 cfg6.N y = (outsAt6 V c t6_7.val t6_7.isLt).1 y := by
  have hv : ∀ t : Fin cfg6.N, (cfg6.win 3).flush t = true → t = t6_7 := fun t hf => Fin.ext (by
    have h := (flush6_3 t).mp hf
    have hN : t.val < 8 := lt_of_lt_of_eq t.isLt (show cfg6.N = 8 from N_6)
    show t.val = 7; omega)
  have h := (dat6 V c).arrAt_emb_eq_flushed 3 (fun t t' hf hf' hne => absurd ((hv t hf).trans (hv t' hf').symm) hne) t6_7 ((flush6_3 t6_7).mpr rfl) y
  have he : ((cfg6.win 3).blk t6_7).view.emb y = y := by
    funext a; apply Fin.ext
    match a with
    | ⟨0, _⟩ => show win6_3.index t6_7 (0 : Fin 2) * 64 + 1 * (y 0).val = (y 0).val; rw [(idx6_3 t6_7).1]; omega
    | ⟨1, _⟩ => show win6_3.index t6_7 (1 : Fin 2) * 1 + 1 * (y 1).val = (y 1).val; rw [(idx6_3 t6_7).2]; omega
  rw [he] at h
  rw [h, cast_eq]
  rfl

end Steps

end Cert.KernelIdeal.GenH

end
-- ==== Proof.LibDotFirst.lean ====
import Idealize.ShloMosaic.PureOps.Ideal.Laws
import Idealize.ShloMosaic.Lib.ValueIdx

noncomputable section

namespace Cert.LibDotFirst

open Idealize.ShloMosaic Idealize.ShloMosaic.ValueIdx

variable {K R N : Nat} (D : DotDims ⟨2, ![K, R]⟩ ⟨2, ![K, N]⟩ ⟨2, ![R, N]⟩)

private theorem coord_congr {s : Shape} (i : s.Idx) (a b : Nat) (ha : a < s.rank) (hb : b < s.rank) (h : a = b) :
    (i ⟨a, ha⟩).val = (i ⟨b, hb⟩).val := by subst h; rfl

theorem contr_rank (hlc : D.lhsContracting = [0]) : D.contr.rank = 1 := by
  rw [D.rank_contr, hlc]; rfl

theorem contr_size (hlc : D.lhsContracting = [0]) :
    D.contr.size ⟨0, by rw [contr_rank D hlc]; exact Nat.one_pos⟩ = K := by
  have h := D.size_contr 0 (by rw [hlc]; exact Nat.one_pos)
  refine h.trans ?_
  simp only [hlc, List.getElem_cons_zero]
  rfl

theorem lhs_row (hlc : D.lhsContracting = [0]) (i : (⟨2, ![R, N]⟩ : Shape).Idx) (q : D.contr.Idx) :
    (D.lhsIdx i q 0).val = (q ⟨0, by rw [contr_rank D hlc]; exact Nat.one_pos⟩).val :=
  D.lhsIdx_val_of_single hlc i q

theorem lhs_col (hln : D.lhsNonContracting = [1]) (hlb : D.lhsBatch = [])
    (i : (⟨2, ![R, N]⟩ : Shape).Idx) (q : D.contr.Idx) : (D.lhsIdx i q 1).val = (i 0).val := by
  unfold DotDims.lhsIdx
  rw [dif_neg (show ¬(1 : Fin (⟨2, ![K, R]⟩ : Shape).rank) ∈ D.lhsBatch by rw [hlb]; exact List.not_mem_nil),
    dif_pos (show (1 : Fin (⟨2, ![K, R]⟩ : Shape).rank) ∈ D.lhsNonContracting by rw [hln]; exact List.mem_singleton.mpr rfl)]
  simp only [Fin.val_cast]
  exact coord_congr i _ 0 _ (show 0 < 2 from Nat.two_pos) (by simp [hlb, hln])

theorem rhs_row (hlc : D.lhsContracting = [0]) (hrc : D.rhsContracting = [0]) (i : (⟨2, ![R, N]⟩ : Shape).Idx)
    (q : D.contr.Idx) : (D.rhsIdx i q 0).val = (q ⟨0, by rw [contr_rank D hlc]; exact Nat.one_pos⟩).val :=
  D.rhsIdx_val_of_single hrc i q

theorem rhs_col (hln : D.lhsNonContracting = [1]) (hrn : D.rhsNonContracting = [1]) (hlb : D.lhsBatch = [])
    (hrb : D.rhsBatch = []) (i : (⟨2, ![R, N]⟩ : Shape).Idx) (q : D.contr.Idx) : (D.rhsIdx i q 1).val = (i 1).val := by
  unfold DotDims.rhsIdx
  rw [dif_neg (show ¬(1 : Fin (⟨2, ![K, N]⟩ : Shape).rank) ∈ D.rhsBatch by rw [hrb]; exact List.not_mem_nil),
    dif_pos (show (1 : Fin (⟨2, ![K, N]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

theorem matmul_first {φ₁ φ₂ : FTy} (prec : Option ContractPrecision)
    (hlc : D.lhsContracting = [0]) (hrc : D.rhsContracting = [0]) (hln : D.lhsNonContracting = [1])
    (hrn : D.rhsNonContracting = [1]) (hlb : D.lhsBatch = []) (hrb : D.rhsBatch = [])
    (l : FVec Ideal ⟨2, ![K, R]⟩ φ₁) (r : FVec Ideal ⟨2, ![K, N]⟩ φ₂) (acc : FVec Ideal ⟨2, ![R, N]⟩ .f32) (p : Fin R) (n : Fin N) :
    FloatOps.matmul D prec l r acc (ix2 p n) = acc (ix2 p n) + ∑ k : Fin K, l (ix2 k p) * r (ix2 k n) := by
  rw [Ideal.matmul_apply,
    ← Equiv.sum_comp (contrEquiv1 D K (contr_rank D hlc) (contr_size D hlc)).symm]
  refine congrArg (acc (ix2 p n) + ·) (Finset.sum_congr rfl fun k _ => ?_)
  have hk := contrEquiv1_symm_val D K (contr_rank D hlc) (contr_size D hlc) k
  have el : D.lhsIdx (ix2 p n) ((contrEquiv1 D K (contr_rank D hlc) (contr_size D hlc)).symm k) = ix2 k p :=
    funext fun a => Fin.ext (by
      match a with
      | ⟨0, _⟩ => exact (lhs_row D hlc _ _).trans hk
      | ⟨1, _⟩ => exact lhs_col D hln hlb _ _)
  have er : D.rhsIdx (ix2 p n) ((contrEquiv1 D K (contr_rank D hlc) (contr_size D hlc)).symm k) = ix2 k n :=
    funext fun a => Fin.ext (by
      match a with
      | ⟨0, _⟩ => exact (rhs_row D hlc hrc _ _).trans hk
      | ⟨1, _⟩ => exact rhs_col D hln hrn hlb hrb _ _)
  rw [el, er]

end Cert.LibDotFirst

end
-- ==== Proof.LibSegmentSum.lean ====
import Mathlib.Algebra.BigOperators.Fin
import Mathlib.Algebra.BigOperators.Group.Finset.Basic
import Mathlib.Data.Fintype.BigOperators
import Mathlib.Logic.Equiv.Fin.Basic

namespace Cert.LibSegmentSum

open Finset

theorem blk_lt {A B : ℕ} (a : Fin A) (b : Fin B) : a.val * B + b.val < A * B := by
  calc a.val * B + b.val < a.val * B + B := Nat.add_lt_add_left b.isLt _
    _ = (a.val + 1) * B := (Nat.succ_mul _ _).symm
    _ ≤ A * B := Nat.mul_le_mul_right _ a.isLt

/-- Position a * B + b is entry b of block a, so the sum over all positions is the sum of the block sums. -/
theorem sum_blocks {M : Type*} [AddCommMonoid M] (A B : ℕ) (f : Fin (A * B) → M) :
    ∑ a : Fin A, ∑ b : Fin B, f ⟨a.val * B + b.val, blk_lt a b⟩ = ∑ n : Fin (A * B), f n := by
  calc ∑ a : Fin A, ∑ b : Fin B, f ⟨a.val * B + b.val, blk_lt a b⟩
      = ∑ x : Fin A × Fin B, f ⟨x.1.val * B + x.2.val, blk_lt x.1 x.2⟩ :=
        (Fintype.sum_prod_type' (fun a b => f ⟨a.val * B + b.val, blk_lt a b⟩)).symm
    _ = ∑ x : Fin A × Fin B, f (finProdFinEquiv x) := by
        refine Fintype.sum_congr _ _ fun x => congrArg f (Fin.ext ?_)
        show x.1.val * B + x.2.val = x.2.val + B * x.1.val
        rw [Nat.mul_comm, Nat.add_comm]
    _ = ∑ n : Fin (A * B), f n := Equiv.sum_comp finProdFinEquiv f

theorem toInt_ofNat_small (n : ℕ) (hn : n < 2 ^ 31) : (BitVec.ofNat 32 n).toInt = (n : ℤ) := by
  have hm : n % 2 ^ 32 = n := Nat.mod_eq_of_lt (by omega)
  rw [BitVec.toInt_eq_toNat_cond, BitVec.toNat_ofNat, hm]
  split <;> omega

/-- For n below 2^31 the 32-bit word of n is the only word whose signed value is n. -/
theorem eq_ofNat_iff (s : BitVec 32) (n : ℕ) (hn : n < 2 ^ 31) :
    s = BitVec.ofNat 32 n ↔ s.toInt = (n : ℤ) := by
  rw [← BitVec.toInt_inj, toInt_ofNat_small n hn]

end Cert.LibSegmentSum
-- ==== Proof.KI.PoolSum.lean ====
import proofs.«408255_j5076651344425_4_alg».proof.Proof.LibSegmentSum
import Mathlib.Data.EReal.Operations
import Mathlib.Algebra.Order.BigOperators.Group.Finset

noncomputable section

namespace Cert.KernelIdeal.PoolH

open Finset
open scoped BigOperators

def oh (w : BitVec 32) (g : Fin 64) : EReal := if w = BitVec.ofNat 32 g.val then 1 else 0

def pos (t : ℕ) (r : Fin 8192) : Fin 65536 := ⟨(t * 8192 + r.val) % 65536, Nat.mod_lt _ (by norm_num)⟩

theorem pos_val (t : ℕ) (ht : t < 8) (r : Fin 8192) : (pos t r).val = t * 8192 + r.val := by
  have := r.isLt
  exact Nat.mod_eq_of_lt (by omega)

def blkSum (f : Fin 65536 → EReal) (t : ℕ) : EReal := ∑ r : Fin 8192, f (pos t r)

def accAt (f : Fin 65536 → EReal) : ℕ → EReal
  | 0 => 0 + blkSum f 0
  | t + 1 => accAt f t + blkSum f (t + 1)

theorem accAt_zero (f : Fin 65536 → EReal) : accAt f 0 = 0 + blkSum f 0 := rfl
theorem accAt_succ (f : Fin 65536 → EReal) (t : ℕ) : accAt f (t + 1) = accAt f t + blkSum f (t + 1) := rfl

theorem accAt_eq_sum (f : Fin 65536 → EReal) (t : ℕ) : accAt f t = ∑ a : Fin (t + 1), blkSum f a.val := by
  induction t with
  | zero => rw [accAt_zero, zero_add]; simp
  | succ t ih => rw [accAt_succ, ih, Fin.sum_univ_castSucc (n := t + 1)]; rfl

theorem accAt_last (f : Fin 65536 → EReal) : accAt f 7 = ∑ n : Fin 65536, f n := by
  rw [accAt_eq_sum]
  refine Eq.trans ?_ (Cert.LibSegmentSum.sum_blocks 8 8192 f)
  refine Fintype.sum_congr _ _ fun a => ?_
  unfold blkSum
  refine Fintype.sum_congr _ _ fun r => congrArg f (Fin.ext ?_)
  exact pos_val a.val a.isLt r

theorem sum_oh_mul (ids : Fin 65536 → BitVec 32) (g : Fin 64) (x : Fin 65536 → EReal) :
    ∑ n : Fin 65536, oh (ids n) g * x n
      = ∑ n ∈ univ.filter (fun n : Fin 65536 => (ids n).toInt = (g.val : ℤ)), x n := by
  rw [Finset.sum_filter]
  refine Fintype.sum_congr _ _ fun n => ?_
  have hg : g.val < 2 ^ 31 := by have := g.isLt; omega
  unfold oh
  by_cases h : ids n = BitVec.ofNat 32 g.val
  · rw [if_pos h, if_pos ((Cert.LibSegmentSum.eq_ofNat_iff _ _ hg).mp h), one_mul]
  · rw [if_neg h, if_neg (fun h' => h ((Cert.LibSegmentSum.eq_ofNat_iff _ _ hg).mpr h')), zero_mul]

theorem sum_one_mul {ι : Type*} (S : Finset ι) (b : EReal) : (∑ _n ∈ S, (1 : EReal)) * b = ∑ _n ∈ S, b := by
  classical
  induction S using Finset.induction_on with
  | empty => simp
  | insert a S ha ih =>
    rw [Finset.sum_insert ha, Finset.sum_insert ha,
      EReal.right_distrib_of_nonneg zero_le_one (Finset.sum_nonneg fun _ _ => zero_le_one), one_mul, ih]

-- ∑_{n ∈ g} (x n + b) = ∑_{n ∈ g} x n + |g| · b on the extended reals: the count is a sum of ones, so it is nonnegative and the product distributes over it.
theorem pool_sum (x : Fin 65536 → EReal) (ids : Fin 65536 → BitVec 32) (b : EReal) (g : Fin 64) :
    accAt (fun n => oh (ids n) g * x n) 7 + accAt (fun n => oh (ids n) g) 7 * b
      = 0 + ∑ n ∈ univ.filter (fun n : Fin 65536 => (ids n).toInt = (g.val : ℤ)), (x n + b) := by
  have hc : ∑ n : Fin 65536, oh (ids n) g
      = ∑ n ∈ univ.filter (fun n : Fin 65536 => (ids n).toInt = (g.val : ℤ)), (1 : EReal) := by
    rw [← sum_oh_mul ids g (fun _ => (1 : EReal))]
    exact Fintype.sum_congr _ _ fun n => (mul_one _).symm
  rw [accAt_last, accAt_last, sum_oh_mul, hc, sum_one_mul, zero_add, Finset.sum_add_distrib]

end Cert.KernelIdeal.PoolH

end
-- ==== Proof.KI.PoolPay.lean ====
import proofs.«408255_j5076651344425_4_alg».proof.Proof.Gen.KernelIdeal.Skeleton
import proofs.«408255_j5076651344425_4_alg».proof.Proof.LibDotFirst
import proofs.«408255_j5076651344425_4_alg».proof.Proof.KI.PoolSum
import Idealize.ShloMosaic.Lib.Pipeline.Value
import Idealize.ShloMosaic.Lib.ValueIdx
import Idealize.ShloMosaic.Lib.IdealHost
import Idealize.ShloMosaic.Lib.StableHlo.Predicate

noncomputable section

namespace Cert.KernelIdeal.PoolH

open Cert.KernelIdeal Cert.KernelIdeal.Gen
open Idealize.ShloMosaic Idealize.ShloMosaic.ValueIdx Idealize.SL.Sem
open scoped BigOperators

theorem sitofp_one : FloatOps.sitofp (F := Ideal) .f32 ((1#1 : BitVec 1).setWidth 32) = (1 : EReal) := by
  show (((((1#1 : BitVec 1).setWidth 32).toInt : ℤ) : ℝ) : EReal) = 1
  have h : ((1#1 : BitVec 1).setWidth 32).toInt = 1 := by decide
  rw [h]; norm_num

theorem sitofp_zero : FloatOps.sitofp (F := Ideal) .f32 ((0#1 : BitVec 1).setWidth 32) = (0 : EReal) := by
  show (((((0#1 : BitVec 1).setWidth 32).toInt : ℤ) : ℝ) : EReal) = 0
  have h : ((0#1 : BitVec 1).setWidth 32).toInt = 0 := by decide
  rw [h]; norm_num

theorem pay3_apply (ids : Vec Ideal S8192 .i32) (r : Fin 8192) (g : Fin 64) :
    k6_pay3 (F := Ideal) ids (ix2 r g) = oh (ids (ix1 r)) g := by
  have hb : broadcastTo S8192x64 (shapeCast S8192x1 ids Facts₀.shapeCasts_S8192_S8192x1) Facts₀.broadcasts_S8192x1_S8192x64 (ix2 r g)
      = ids (ix1 r) := by
    rw [broadcastTo_apply _ _ (ix2 r g) (ix2 r (0 : Fin 1)) (fun a => match a with
      | ⟨0, _⟩ => by show r.val = if (8192 : Nat) = 1 then 0 else r.val; rw [if_neg (by decide)]
      | ⟨1, _⟩ => by show 0 = if (1 : Nat) = 1 then 0 else g.val; rw [if_pos rfl])]
    exact shapeCast_apply _ _ (ix2 r (0 : Fin 1)) (ix1 r) (by
      rw [Shape.rowMajor_val_one, Shape.rowMajor_val_two]
      show r.val = r.val * 1 + 0
      omega)
  have hi : iota .tc S8192x64 32 [1] Facts₀.iota_S8192x64_d1_w32 (ix2 r g) = BitVec.ofNat 32 g.val :=
    iota_single_apply .tc S8192x64 32 1 Facts₀.iota_S8192x64_d1_w32 (ix2 r g)
  show FloatOps.sitofp (F := Ideal) .f32 ((IntOp.cmpi .eq
      (broadcastTo S8192x64 (shapeCast S8192x1 ids Facts₀.shapeCasts_S8192_S8192x1) Facts₀.broadcasts_S8192x1_S8192x64 (ix2 r g))
      (iota .tc S8192x64 32 [1] Facts₀.iota_S8192x64_d1_w32 (ix2 r g))).setWidth 32) = _
  rw [hb, hi]
  unfold oh
  by_cases h : ids (ix1 r) = BitVec.ofNat 32 g.val
  · rw [if_pos h, (StableHlo.Predicate.cmpi_eq_iff).mpr h]; exact sitofp_one
  · rw [if_neg h]
    have h0 : IntOp.cmpi .eq (ids (ix1 r)) (BitVec.ofNat 32 g.val) = 0#1 :=
      eq_zero_of_ne_one (fun h1 => h ((StableHlo.Predicate.cmpi_eq_iff).mp h1))
    rw [h0]; exact sitofp_zero

theorem pay1_apply (j : S64x1.Idx) : k6_pay1 (F := Ideal) j = 0 := by
  unfold k6_pay1
  simp only [shapeCast_self]
  exact Ideal.ofBits_zero_f32

theorem pay2_apply (j : S64x1.Idx) : k6_pay2 (F := Ideal) j = 0 := pay1_apply j

theorem dot3_apply (ids : Vec Ideal S8192 .i32) (x : Vec Ideal S8192x1 .f32) (g : Fin 64) :
    FloatOps.matmul (φ₂ := .f32) dot_S8192x64_S8192x1_S64x1_0_0_1_1_n_n none (k6_pay3 (F := Ideal) ids) x
        (constant (F := Ideal) S64x1 .f32 0x00000000#32) (ix2 g (0 : Fin 1))
      = ∑ r : Fin 8192, oh (ids (ix1 r)) g * x (ix2 r (0 : Fin 1)) := by
  rw [Cert.LibDotFirst.matmul_first dot_S8192x64_S8192x1_S64x1_0_0_1_1_n_n none rfl rfl rfl rfl rfl rfl,
    constant_apply, Ideal.ofBits_zero_f32, zero_add]
  exact Finset.sum_congr rfl fun r _ => by rw [pay3_apply]

theorem pay4_apply (ids : Vec Ideal S8192 .i32) (acc : Vec Ideal S64x1 .f32) (x : Vec Ideal S8192x1 .f32) (g : Fin 64) :
    k6_pay4 (F := Ideal) ids acc x (ix2 g (0 : Fin 1))
      = acc (ix2 g (0 : Fin 1)) + ∑ r : Fin 8192, oh (ids (ix1 r)) g * x (ix2 r (0 : Fin 1)) := by
  unfold k6_pay4
  simp only [shapeCast_self, addf_apply]
  exact congrArg (acc (ix2 g (0 : Fin 1)) + ·) (dot3_apply ids x g)

theorem pay5_apply (ids : Vec Ideal S8192 .i32) (cnt : Vec Ideal S64x1 .f32) (g : Fin 64) :
    k6_pay5 (F := Ideal) ids cnt (ix2 g (0 : Fin 1))
      = cnt (ix2 g (0 : Fin 1)) + ∑ r : Fin 8192, oh (ids (ix1 r)) g := by
  unfold k6_pay5
  simp only [shapeCast_self, addf_apply]
  refine congrArg (cnt (ix2 g (0 : Fin 1)) + ·) ((dot3_apply ids _ g).trans (Finset.sum_congr rfl fun r _ => ?_))
  rw [broadcast_apply]
  show _ * Ideal.ofBits .f32 0x3F800000#32 = _
  rw [Ideal.ofBits_one_f32, mul_one]

theorem pay6_apply (acc cnt : Vec Ideal S64x1 .f32) (bout : Vec Ideal S1x1 .f32) (g : Fin 64) :
    k6_pay6 (F := Ideal) acc cnt bout (ix2 g (0 : Fin 1))
      = acc (ix2 g (0 : Fin 1)) + cnt (ix2 g (0 : Fin 1)) * bout (ix2 (0 : Fin 1) (0 : Fin 1)) := by
  unfold k6_pay6
  simp only [shapeCast_self, addf_apply, mulf_apply]
  rw [broadcastTo_apply bout Facts₀.broadcasts_S1x1_S64x1 (ix2 g (0 : Fin 1)) (ix2 (0 : Fin 1) (0 : Fin 1)) (fun a => match a with
      | ⟨0, _⟩ => by show 0 = if (1 : Nat) = 1 then 0 else g.val; rw [if_pos rfl]
      | ⟨1, _⟩ => by show 0 = if (1 : Nat) = 1 then 0 else 0; rw [if_pos rfl])]

end Cert.KernelIdeal.PoolH

end
-- ==== Proof.LibScatterSum.lean ====
import Idealize.ShloMosaic.PureOps.Ideal
import Idealize.ShloMosaic.Lib.ValueIdx

noncomputable section

open Idealize.ShloMosaic Idealize.ShloMosaic.ValueIdx
open scoped BigOperators

namespace Cert.LibScatterSum

section Rows
variable {N K E w : Nat}
  (h : ScatterDims.WF (⟨2, ![N, K]⟩ : Shape) (⟨2, ![E, 1]⟩ : Shape) (⟨2, ![E, K]⟩ : Shape) [1] [0] [0] 1)

abbrev rowsDims : ScatterDims (⟨2, ![N, K]⟩ : Shape) (⟨2, ![E, 1]⟩ : Shape) (⟨2, ![E, K]⟩ : Shape) := ⟨[1], [0], [0], 1, h⟩

theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- At (n, k): the operand's entry plus the entries (e, k) of the rows e whose signed index word is n. -/
theorem scatterAdd_rows (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

end Cert.LibScatterSum

end
-- ==== Proof.KI.PoolRef.lean ====
import proofs.«408255_j5076651344425_4_alg».proof.Proof.Gen.ReferenceIdeal.Read
import proofs.«408255_j5076651344425_4_alg».proof.Proof.LibScatterSum
import Idealize.ShloMosaic.Lib.ValueIdx
import Idealize.ShloMosaic.Lib.IdealHost

noncomputable section

namespace Cert.KernelIdeal.PoolH

open Idealize.ShloMosaic Idealize.ShloMosaic.ValueIdx
open Cert.ReferenceIdeal.Read
open scoped BigOperators

theorem ref_scatter_apply (z : FVec Ideal (⟨2, ![64, 1]⟩ : Shape) .f32) (idx : IVec (⟨2, ![65536, 1]⟩ : Shape) 32)
    (upd : FVec Ideal (⟨2, ![65536, 1]⟩ : Shape) .f32) (g : Fin 64) :
    Host.scatterAdd Cert.ReferenceIdeal.scatter_S64x1_S65536x1_S65536x1_1_0_0_1 z idx upd (ix2 g (0 : Fin 1))
      = z (ix2 g (0 : Fin 1))
        + ∑ e ∈ Finset.univ.filter (fun e : Fin 65536 => (idx (ix2 e (0 : Fin 1))).toInt = (g.val : ℤ)), upd (ix2 e (0 : Fin 1)) :=
  Cert.LibScatterSum.scatterAdd_rows (N := 64) (K := 1) (E := 65536)
    Cert.ReferenceIdeal.Facts₀.scatter_S64x1_S65536x1_S65536x1_1_0_0_1_wf z idx upd g (0 : Fin 1)

theorem ref_zero_apply (j : (⟨2, ![64, 1]⟩ : Shape).Idx) : val_main_v74 (F := Ideal) j = 0 := by
  rw [val_main_v74_apply, val_main_cst_7_apply]
  exact Ideal.ofBits_zero_f32

theorem ref_idx_apply (batch : Vec Ideal (⟨1, ![65536]⟩ : Shape) .i32) (e : Fin 65536) :
    val_main_v75 (F := Ideal) batch (ix2 e (0 : Fin 1)) = batch (ix1 e) := by
  rw [val_main_v75_apply]
  exact congrArg batch (funext fun a => match a with | ⟨0, _⟩ => rfl)

theorem ref_upd_apply (x : Vec Ideal (⟨2, ![65536, 1]⟩ : Shape) .f32) (b : Vec Ideal (⟨1, ![1]⟩ : Shape) .f32) (e : Fin 65536) :
    addf (F := Ideal) (φ := .f32) x (val_main_v72 (F := Ideal) b) (ix2 e (0 : Fin 1)) = x (ix2 e (0 : Fin 1)) + b (ix1 (0 : Fin 1)) := by
  rw [addf_apply, val_main_v72_apply, val_main_v71_apply]
  exact congrArg (fun i => x (ix2 e (0 : Fin 1)) + b i) (funext fun a => match a with | ⟨0, _⟩ => rfl)

theorem ref_out_apply (x : Vec Ideal (⟨2, ![65536, 1]⟩ : Shape) .f32) (batch : Vec Ideal (⟨1, ![65536]⟩ : Shape) .i32)
    (b : Vec Ideal (⟨1, ![1]⟩ : Shape) .f32) (g : Fin 64) :
    Host.scatterAdd Cert.ReferenceIdeal.scatter_S64x1_S65536x1_S65536x1_1_0_0_1 (val_main_v74 (F := Ideal))
        (val_main_v75 (F := Ideal) batch) (addf (F := Ideal) (φ := .f32) x (val_main_v72 (F := Ideal) b)) (ix2 g (0 : Fin 1))
      = 0 + ∑ e ∈ Finset.univ.filter (fun e : Fin 65536 => (batch (ix1 e)).toInt = (g.val : ℤ)),
          (x (ix2 e (0 : Fin 1)) + b (ix1 (0 : Fin 1))) := by
  rw [ref_scatter_apply, ref_zero_apply]
  simp only [ref_idx_apply, ref_upd_apply]

end Cert.KernelIdeal.PoolH

end
-- ==== Proof.KI.PoolMath.lean ====
import proofs.«408255_j5076651344425_4_alg».proof.Proof.KI.PoolPay
import proofs.«408255_j5076651344425_4_alg».proof.Proof.KI.PoolRef

noncomputable section

namespace Cert.KernelIdeal.PoolH

open Cert.KernelIdeal Cert.KernelIdeal.Gen
open Idealize.ShloMosaic Idealize.ShloMosaic.ValueIdx Idealize.SL.Sem
open scoped BigOperators

def fX (x : Vec Ideal S65536x1 .f32) (batch : Vec Ideal S65536 .i32) (g : Fin 64) : Fin 65536 → EReal :=
  fun n => oh (batch (ix1 n)) g * x (ix2 n (0 : Fin 1))

def fC (batch : Vec Ideal S65536 .i32) (g : Fin 64) : Fin 65536 → EReal :=
  fun n => oh (batch (ix1 n)) g

section Run
variable (x : Vec Ideal S65536x1 .f32) (batch : Vec Ideal S65536 .i32)
  (I : (n : ℕ) → n < 8 → Vec Ideal S8192 .i32) (X : (n : ℕ) → n < 8 → Vec Ideal S8192x1 .f32)
  (hI : ∀ (n : ℕ) (hn : n < 8) (r : Fin 8192), I n hn (ix1 r) = batch (ix1 (pos n r)))
  (hX : ∀ (n : ℕ) (hn : n < 8) (r : Fin 8192), X n hn (ix2 r (0 : Fin 1)) = x (ix2 (pos n r) (0 : Fin 1)))
include hI hX

theorem acc_run (A : (n : ℕ) → n < 8 → Vec Ideal S64x1 .f32)
    (h0 : ∀ h : 0 < 8, A 0 h = k6_pay4 (F := Ideal) (I 0 h) (k6_pay1 (F := Ideal)) (X 0 h))
    (hs : ∀ (n : ℕ) (hn : n + 1 < 8),
      A (n + 1) hn = k6_pay4 (F := Ideal) (I (n + 1) hn) (A n (Nat.lt_of_succ_lt hn)) (X (n + 1) hn))
    (g : Fin 64) (n : ℕ) (hn : n < 8) : A n hn (ix2 g (0 : Fin 1)) = accAt (fX x batch g) n := by
  have hb : ∀ (s : ℕ) (hs8 : s < 8),
      ∑ r : Fin 8192, oh (I s hs8 (ix1 r)) g * X s hs8 (ix2 r (0 : Fin 1)) = blkSum (fX x batch g) s := by
    intro s hs8
    unfold blkSum fX
    exact Finset.sum_congr rfl fun r _ => by rw [hI s hs8 r, hX s hs8 r]
  induction n with
  | zero => rw [h0 hn, pay4_apply, pay1_apply, hb 0 hn, accAt_zero]
  | succ n ih => rw [hs n hn, pay4_apply, ih (Nat.lt_of_succ_lt hn), hb (n + 1) hn, accAt_succ]

omit hX in
theorem cnt_run (C : (n : ℕ) → n < 8 → Vec Ideal S64x1 .f32)
    (h0 : ∀ h : 0 < 8, C 0 h = k6_pay5 (F := Ideal) (I 0 h) (k6_pay2 (F := Ideal)))
    (hs : ∀ (n : ℕ) (hn : n + 1 < 8),
      C (n + 1) hn = k6_pay5 (F := Ideal) (I (n + 1) hn) (C n (Nat.lt_of_succ_lt hn)))
    (g : Fin 64) (n : ℕ) (hn : n < 8) : C n hn (ix2 g (0 : Fin 1)) = accAt (fC batch g) n := by
  have hb : ∀ (s : ℕ) (hs8 : s < 8), ∑ r : Fin 8192, oh (I s hs8 (ix1 r)) g = blkSum (fC batch g) s := by
    intro s hs8
    unfold blkSum fC
    exact Finset.sum_congr rfl fun r _ => by rw [hI s hs8 r]
  induction n with
  | zero => rw [h0 hn, pay5_apply, pay2_apply, hb 0 hn, accAt_zero]
  | succ n ih => rw [hs n hn, pay5_apply, ih (Nat.lt_of_succ_lt hn), hb (n + 1) hn, accAt_succ]

end Run
def poolOut (x : Vec Ideal S65536x1 .f32) (batch : Vec Ideal S65536 .i32) (b : EReal) : Vec Ideal S64x1 .f32 :=
  fun j => accAt (fX x batch (j 0)) 7 + accAt (fC batch (j 0)) 7 * b

theorem out_run (x : Vec Ideal S65536x1 .f32) (batch : Vec Ideal S65536 .i32) (A C : Vec Ideal S64x1 .f32)
    (bout : Vec Ideal S1x1 .f32)
    (hA : ∀ g : Fin 64, A (ix2 g (0 : Fin 1)) = accAt (fX x batch g) 7)
    (hC : ∀ g : Fin 64, C (ix2 g (0 : Fin 1)) = accAt (fC batch g) 7) :
    k6_pay6 (F := Ideal) A C bout = poolOut x batch (bout (ix2 (0 : Fin 1) (0 : Fin 1))) := by
  funext j
  obtain ⟨g, z, rfl⟩ : ∃ (g : Fin 64) (z : Fin 1), j = ix2 g z := ⟨j 0, j 1, eq_ix2 j⟩
  obtain rfl : z = 0 := Subsingleton.elim _ _
  rw [pay6_apply, hA, hC]
  rfl

theorem poolOut_eq_ref (x : Vec Ideal S65536x1 .f32) (batch : Vec Ideal S65536 .i32) (b : Vec Ideal S1 .f32) :
    poolOut x batch (b (ix1 (0 : Fin 1)))
      = Host.scatterAdd Cert.ReferenceIdeal.scatter_S64x1_S65536x1_S65536x1_1_0_0_1
          (Cert.ReferenceIdeal.Read.val_main_v74 (F := Ideal)) (Cert.ReferenceIdeal.Read.val_main_v75 (F := Ideal) batch)
          (addf (F := Ideal) (φ := .f32) x (Cert.ReferenceIdeal.Read.val_main_v72 (F := Ideal) b)) := by
  funext j
  obtain ⟨g, z, rfl⟩ : ∃ (g : Fin 64) (z : Fin 1), j = ix2 g z := ⟨j 0, j 1, eq_ix2 j⟩
  obtain rfl : z = 0 := Subsingleton.elim _ _
  rw [ref_out_apply]
  exact pool_sum (fun n => x (ix2 n (0 : Fin 1))) (fun n => batch (ix1 n)) (b (ix1 (0 : Fin 1))) g

end Cert.KernelIdeal.PoolH

end
-- ==== Proof.KI.PoolFinal.lean ====
import proofs.«408255_j5076651344425_4_alg».proof.Proof.KI.RegR6Runs
import proofs.«408255_j5076651344425_4_alg».proof.Proof.KI.PoolMath

set_option maxRecDepth 16384

noncomputable section

namespace Cert.KernelIdeal.GenH

open Cert.KernelIdeal Cert.KernelIdeal.Gen
open Idealize.ShloMosaic Idealize.ShloMosaic.TcCoe Idealize.ShloMosaic.ValueIdx
open Idealize.SL.Sem
open Idealize.ShloMosaic.Pipeline (Dat Cfg Window BodyObligation cellOf)
open Cert.KernelIdeal.PoolH (pos pos_val)

variable (V : (c : Dev nD) → (b : Ref sig .tc) → Buf (Elt Ideal) ((c : Thread nD τ).loc b))

theorem idx6 : ∀ t : Fin cfg6.N, win6_0.index t (0 : Fin 2) = t.val ∧ win6_0.index t (1 : Fin 2) = 0
    ∧ win6_1.index t (0 : Fin 1) = t.val ∧ win6_2.index t (0 : Fin 2) = 0 ∧ win6_2.index t (1 : Fin 2) = 0 :=
  (by decide +kernel : ∀ t : Fin grid6.N, _)

theorem iblk6_0_apply (c : Dev nD) (t : Fin cfg6.N) (r : Fin 8192) :
    (iblk6 V c 0 t : S8192x1.Idx → EReal) (ix2 r (0 : Fin 1))
      = (V c main_v45 : S65536x1.Idx → EReal) (ix2 (pos t.val r) (0 : Fin 1)) := by
  obtain ⟨e0, e1, -, -, -⟩ := idx6 t
  show (V c main_v45 : S65536x1.Idx → EReal) (((cfg6.win 0).blk t).view.emb (ix2 r (0 : Fin 1))) = _
  refine congrArg (V c main_v45 : S65536x1.Idx → EReal) (funext fun a => Fin.ext ?_)
  have hp := pos_val t.val t.isLt r
  match a with
  | ⟨0, _⟩ => show win6_0.index t (0 : Fin 2) * 8192 + 1 * r.val = (pos t.val r).val; omega
  | ⟨1, _⟩ => show win6_0.index t (1 : Fin 2) * 1 + 1 * 0 = 0; omega

theorem iblk6_1_apply (c : Dev nD) (t : Fin cfg6.N) (r : Fin 8192) :
    (iblk6 V c 1 t : S8192.Idx → BitVec 32) (ix1 r)
      = (V c main_arg4 : S65536.Idx → BitVec 32) (ix1 (pos t.val r)) := by
  obtain ⟨-, -, e2, -, -⟩ := idx6 t
  show (V c main_arg4 : S65536.Idx → BitVec 32) (((cfg6.win 1).blk t).view.emb (ix1 r)) = _
  refine congrArg (V c main_arg4 : S65536.Idx → BitVec 32) (funext fun a => Fin.ext ?_)
  have hp := pos_val t.val t.isLt r
  match a with
  | ⟨0, _⟩ => show win6_1.index t (0 : Fin 1) * 8192 + 1 * r.val = (pos t.val r).val; omega

theorem iblk6_2_apply (c : Dev nD) (t : Fin cfg6.N) :
    (iblk6 V c 2 t : S1x1.Idx → EReal) (ix2 (0 : Fin 1) (0 : Fin 1))
      = (V c main_v46 : S1x1.Idx → EReal) (ix2 (0 : Fin 1) (0 : Fin 1)) := by
  obtain ⟨-, -, -, e3, e4⟩ := idx6 t
  show (V c main_v46 : S1x1.Idx → EReal) (((cfg6.win 2).blk t).view.emb (ix2 (0 : Fin 1) (0 : Fin 1))) = _
  refine congrArg (V c main_v46 : S1x1.Idx → EReal) (funext fun a => Fin.ext ?_)
  match a with
  | ⟨0, _⟩ => show win6_2.index t (0 : Fin 2) * 1 + 1 * 0 = 0; omega
  | ⟨1, _⟩ => show win6_2.index t (1 : Fin 2) * 1 + 1 * 0 = 0; omega

end Cert.KernelIdeal.GenH

end
-- ==== Proof.KI.PoolLast.lean ====
import proofs.«408255_j5076651344425_4_alg».proof.Proof.KI.RegR6Closed
import proofs.«408255_j5076651344425_4_alg».proof.Proof.KI.PoolFinal

set_option maxRecDepth 16384

noncomputable section

namespace Cert.KernelIdeal.GenH

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem final6 (c : Dev nD) (b : Vec Ideal S1 .f32)
    (hb : (V c main_v46 : S1x1.Idx → EReal) (ix2 (0 : Fin 1) (0 : Fin 1)) = b (ix1 (0 : Fin 1))) :
    ((dat6 (F := Ideal) V c).arrAt 3 cfg6.N : S64x1.Idx → EReal)
      = Host.scatterAdd Cert.ReferenceIdeal.scatter_S64x1_S65536x1_S65536x1_1_0_0_1
        (Cert.ReferenceIdeal.Read.val_main_v74 (F := Ideal))
        (Cert.ReferenceIdeal.Read.val_main_v75 (F := Ideal) (V c main_arg4 : S65536.Idx → BitVec 32))
        (addf (F := Ideal) (φ := .f32) (V c main_v45 : S65536x1.Idx → EReal)
          (Cert.ReferenceIdeal.Read.val_main_v72 (F := Ideal) b)) := by
  funext y
  rw [arrAt6_3 (F := Ideal) V c y]
  refine congrFun ((out6_last (F := Ideal) V c t6_7 rfl).trans ?_) y
  exact (PoolH.out_run (V c main_v45 : S65536x1.Idx → EReal) (V c main_arg4 : S65536.Idx → BitVec 32) _ _ _
    (fun g => PoolH.acc_run _ _ (fun n hn => iblk6 V c 1 ⟨n, hn⟩) (fun n hn => iblk6 V c 0 ⟨n, hn⟩)
      (fun n hn => iblk6_1_apply V c ⟨n, hn⟩) (fun n hn => iblk6_0_apply V c ⟨n, hn⟩) (fun n hn => (outsAt6 V c n hn).2.1)
      (fun h => acc6_first V c ⟨0, h⟩ rfl) (fun n hn => acc6_step V c ⟨n + 1, hn⟩ n.succ_ne_zero) g 7 t6_7.isLt)
    (fun g => PoolH.cnt_run _ (fun n hn => iblk6 V c 1 ⟨n, hn⟩) (fun n hn => iblk6_1_apply V c ⟨n, hn⟩)
      (fun n hn => (outsAt6 V c n hn).2.2)
      (fun h => cnt6_first V c ⟨0, h⟩ rfl) (fun n hn => cnt6_step V c ⟨n + 1, hn⟩ n.succ_ne_zero) g 7 t6_7.isLt)).trans
    ((congrArg (PoolH.poolOut _ _) ((iblk6_2_apply V c t6_7).trans hb)).trans (PoolH.poolOut_eq_ref _ _ b))

end Cert.KernelIdeal.GenH

end
-- ==== Proof.KI.Bridge.lean ====
import proofs.«408255_j5076651344425_4_alg».proof.Proof.KI.Host
import proofs.«408255_j5076651344425_4_alg».proof.Proof.KI.ValNode
import proofs.«408255_j5076651344425_4_alg».proof.Proof.KI.ValEdge
import proofs.«408255_j5076651344425_4_alg».proof.Proof.KI.PoolLast

set_option maxRecDepth 16384

noncomputable section

namespace Cert.KernelIdeal.ValH

open Cert.KernelIdeal Cert.KernelIdeal.Gen Cert.KernelIdeal.GenH
open Idealize.ShloMosaic Idealize.ShloMosaic.TcCoe Idealize.SL.Sem Idealize.ShloMosaic.ValueIdx Idealize.ShloMosaic.StableHlo
open Cert.ReferenceIdeal.Read

variable (m : (ℓ : Loc nD τ sig) → Buf (Elt Ideal) ℓ)

theorem stage27 (c : Dev nD) : (o1 m c : S65536x64.Idx → EReal) = val_main_v27 (F := Ideal) (a0 m c) (a5 m c) :=
  final0 (atTc (Y0 m)) c

theorem stage34 (c : Dev nD) : (Y2 m c main_v7 : S1048576x64.Idx → EReal) = val_main_v34 (F := Ideal) (a0 m c) (a2 m c) (a5 m c) := by
  show StableHlo.after hostOps1 (Y1 m c) (Proc.devRef .tc main_v7) = _
  after_results
  rw [Y1_self, Y1_kept m c main_arg2 (by decide), stage27]
  rfl

theorem stage35 (c : Dev nD) : (o3 m c : S1048576x64.Idx → EReal) = val_main_v35 (F := Ideal) (a0 m c) (a1 m c) (a2 m c) (a5 m c) (a11 m c) (a12 m c) (a13 m c) (a14 m c) := by
  have h := final1 (atTc (Y2 m)) c (a12 m c) (a14 m c) (Y2_v8 m c) (Y2_v9 m c)
  dsimp only [atTc] at h
  rw [stage34 m c, Y2_kept m c main_arg1 (by decide), Y2_kept m c main_arg11 (by decide), Y2_kept m c main_arg13 (by decide)] at h
  exact h

theorem stage38 (c : Dev nD) : (Y4 m c main_v14 : S65536x64.Idx → EReal) = val_main_v38 (F := Ideal) (a0 m c) (a1 m c) (a2 m c) (a3 m c) (a5 m c) (a11 m c) (a12 m c) (a13 m c) (a14 m c) := by
  show StableHlo.after hostOps2 (Y3 m c) (Proc.devRef .tc main_v14) = _
  after_results
  rw [Y3_self, Y3_kept m c main_arg3 (by decide), stage35]
  rfl

theorem stage43 (c : Dev nD) : (o5 m c : S65536x64.Idx → EReal) = val_main_v43 (F := Ideal) (a0 m c) (a1 m c) (a2 m c) (a3 m c) (a5 m c) (a6 m c) (a7 m c) (a11 m c) (a12 m c) (a13 m c) (a14 m c) := by
  have h := final2 (atTc (Y4 m)) c (a6 m c) (Y4_v15 m c)
  dsimp only [atTc] at h
  rw [stage38 m c, Y4_kept m c main_arg7 (by decide)] at h
  exact h

theorem stage50 (c : Dev nD) : (Y6 m c main_v23 : S1048576x64.Idx → EReal) = val_main_v50 (F := Ideal) (a0 m c) (a1 m c) (a2 m c) (a3 m c) (a5 m c) (a6 m c) (a7 m c) (a11 m c) (a12 m c) (a13 m c) (a14 m c) := by
  show StableHlo.after hostOps3 (Y5 m c) (Proc.devRef .tc main_v23) = _
  after_results
  rw [Y5_self, Y5_kept m c main_arg2 (by decide), stage43]
  rfl

theorem stage51 (c : Dev nD) : (o7 m c : S1048576x64.Idx → EReal) = val_main_v51 (F := Ideal) (a0 m c) (a1 m c) (a2 m c) (a3 m c) (a5 m c) (a6 m c) (a7 m c) (a11 m c) (a12 m c) (a13 m c) (a14 m c) (a15 m c) (a16 m c) (a17 m c) (a18 m c) := by
  have h := final3 (atTc (Y6 m)) c (a16 m c) (a18 m c) (Y6_v24 m c) (Y6_v25 m c)
  dsimp only [atTc] at h
  rw [stage50 m c, Y6_kept m c main_arg1 (by decide), Y6_kept m c main_arg15 (by decide), Y6_kept m c main_arg17 (by decide)] at h
  exact h

theorem stage54 (c : Dev nD) : (Y8 m c main_v30 : S65536x64.Idx → EReal) = val_main_v54 (F := Ideal) (a0 m c) (a1 m c) (a2 m c) (a3 m c) (a5 m c) (a6 m c) (a7 m c) (a11 m c) (a12 m c) (a13 m c) (a14 m c) (a15 m c) (a16 m c) (a17 m c) (a18 m c) := by
  rw [Y8_v30, stage51]; rfl

theorem stage59 (c : Dev nD) : (o9 m c : S65536x1.Idx → EReal) = val_main_v59 (F := Ideal) (a0 m c) (a1 m c) (a2 m c) (a3 m c) (a5 m c) (a6 m c) (a7 m c) (a8 m c) (a9 m c) (a11 m c) (a12 m c) (a13 m c) (a14 m c) (a15 m c) (a16 m c) (a17 m c) (a18 m c) := by
  have h := final4 (atTc (Y8 m)) c (a8 m c) (Y8_v31 m c)
  dsimp only [atTc] at h
  rw [stage54 m c, Y8_kept m c main_arg9 (by decide)] at h
  exact h

theorem stage66 (c : Dev nD) : (Y10 m c main_v39 : S1048576x1.Idx → EReal) = val_main_v66 (F := Ideal) (a0 m c) (a1 m c) (a2 m c) (a3 m c) (a5 m c) (a6 m c) (a7 m c) (a8 m c) (a9 m c) (a11 m c) (a12 m c) (a13 m c) (a14 m c) (a15 m c) (a16 m c) (a17 m c) (a18 m c) := by
  show StableHlo.after hostOps5 (Y9 m c) (Proc.devRef .tc main_v39) = _
  after_results
  rw [Y9_self, Y9_kept m c main_arg2 (by decide), stage59]
  rfl

theorem stage67 (c : Dev nD) : (o11 m c : S1048576x1.Idx → EReal) = val_main_v67 (F := Ideal) (a0 m c) (a1 m c) (a2 m c) (a3 m c) (a5 m c) (a6 m c) (a7 m c) (a8 m c) (a9 m c) (a11 m c) (a12 m c) (a13 m c) (a14 m c) (a15 m c) (a16 m c) (a17 m c) (a18 m c) (a19 m c) (a20 m c) (a21 m c) (a22 m c) := by
  have h := final5 (atTc (Y10 m)) c (a20 m c) (a22 m c) (Y10_v40 m c) (Y10_v41 m c)
  dsimp only [atTc] at h
  rw [stage66 m c, Y10_kept m c main_arg1 (by decide), Y10_kept m c main_arg19 (by decide), Y10_kept m c main_arg21 (by decide)] at h
  exact h

theorem stage70 (c : Dev nD) : (Y12 m c main_v45 : S65536x1.Idx → EReal) = val_main_v70 (F := Ideal) (a0 m c) (a1 m c) (a2 m c) (a3 m c) (a5 m c) (a6 m c) (a7 m c) (a8 m c) (a9 m c) (a11 m c) (a12 m c) (a13 m c) (a14 m c) (a15 m c) (a16 m c) (a17 m c) (a18 m c) (a19 m c) (a20 m c) (a21 m c) (a22 m c) := by
  show StableHlo.after hostOps6 (Y11 m c) (Proc.devRef .tc main_v45) = _
  after_results
  rw [Y11_self, Y11_kept m c main_arg3 (by decide), stage67]
  rfl

theorem kernel_value (c : Dev nD) : (o13 m c : S64x1.Idx → EReal) = val_main_v76 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) := by
  have h := GenH.final6 (atTc (Y12 m)) c (a10 m c) (Y12_v46 m c (0 : Fin 1))
  dsimp only [atTc] at h
  rw [stage70 m c, Y12_kept m c main_arg4 (by decide)] at h
  exact h

end Cert.KernelIdeal.ValH

end
-- ==== Proof.lean ====
import proofs.«408255_j5076651344425_4_alg».proof.Defs
import proofs.«408255_j5076651344425_4_alg».proof.Proof.Gen.Kernel
import proofs.«408255_j5076651344425_4_alg».proof.Proof.Gen.KernelIdeal
import proofs.«408255_j5076651344425_4_alg».proof.Proof.Gen.ReferenceIdeal
import proofs.«408255_j5076651344425_4_alg».proof.Proof.Gen.Pre_finite_inputs
import proofs.«408255_j5076651344425_4_alg».proof.Proof.Gen.ReferenceIdeal.Run
import proofs.«408255_j5076651344425_4_alg».proof.Proof.Gen.ReferenceIdeal.Read
import proofs.«408255_j5076651344425_4_alg».proof.Proof.K.Frame
import proofs.«408255_j5076651344425_4_alg».proof.Proof.KI.Frame
import proofs.«408255_j5076651344425_4_alg».proof.Proof.KI.Result
import proofs.«408255_j5076651344425_4_alg».proof.Proof.KI.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenH.frame m ρ

theorem frame_ki : Cert.frame_KernelIdeal := fun m ρ _ => Cert.KernelIdeal.GenH.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are the reference's composed term of the arguments: the kernel program's by the chain of its
    regions and host stretches, the reference's by its own run; the arguments agree. -/
theorem algebraic : Cert.algebraic_KernelIdeal_ReferenceIdeal := by
  intro m ρ m' ρ' _ hagree
  refine ⟨fun c => Cert.KernelIdeal.GenH.o13 m c, Cert.KernelIdeal.GenH.run_result m ρ, ?_⟩
  refine (θ_run Cert.ReferenceIdeal.defs _ _).mono (fun _ h c => ⟨(h c).1.trans ?_, (h c).2⟩)
    (Cert.ReferenceIdeal.Value.run (F := Ideal) m' ρ')
  have e1 := Cert.ReferenceIdeal.Read.val_main_v76_eq (F := Ideal) m' c
  simp only [hagree c] at e1
  exact e1.trans (Cert.KernelIdeal.ValH.kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
